-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x128 : Shape := ⟨2, ![16384, 128]⟩
abbrev S16384 : Shape := ⟨1, ![16384]⟩
abbrev S90x128 : Shape := ⟨2, ![90, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S90x128 : S_.BroadcastsInDim S90x128 (![] : Fin 0 → Fin S90x128.rank)
  reducesTo_S90x128_S_d0_1 : S90x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x128 .f32) (main_arg1 : IVec S16384 32) (main_arg2 : FVec F S90x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S90x128 .f32 := Host.absf main_arg2
  let main_cst_0 : FVec F S_ .f32 := constant S_ .f32 0x7F800000#32
  let main_v5 : FVec F S90x128 .f32 := broadcastInDim S90x128 ![] bcast_S_S90x128 main_cst_0
  let main_v6 : IVec S90x128 1 := cmpf .olt main_v4 main_v5
  let main_c_1 : IVec S_ 1 := constantI S_ 1 1#1
  let main_v7 : IVec S_ 1 := (fun x v => Host.reduce IntOp.andi x v reducesTo_S90x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 89#32
  let main_v11 : IVec S16384 32 := broadcastInDim S16384 ![] bcast_S_S16384 main_c_3
  let main_v12 : IVec S16384 1 := cmpi .sle main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x128 : Shape := ⟨2, ![16384, 128]⟩
abbrev S16384 : Shape := ⟨1, ![16384]⟩
abbrev S90x128 : Shape := ⟨2, ![90, 128]⟩
abbrev S8x1x2048 : Shape := ⟨3, ![8, 1, 2048]⟩
abbrev S1x1 : Shape := ⟨2, ![1, 1]⟩
abbrev S2x1x2048 : Shape := ⟨3, ![2, 1, 2048]⟩
abbrev S2048x128 : Shape := ⟨2, ![2048, 128]⟩
abbrev S1x1x2048 : Shape := ⟨3, ![1, 1, 2048]⟩
abbrev S90 : Shape := ⟨1, ![90]⟩
abbrev S90x1 : Shape := ⟨2, ![90, 1]⟩
abbrev S90x2048 : Shape := ⟨2, ![90, 2048]⟩
abbrev S2048 : Shape := ⟨1, ![2048]⟩
abbrev S1x2048 : Shape := ⟨2, ![1, 2048]⟩
abbrev S1 : Shape := ⟨1, ![1]⟩
abbrev S512x16 : Shape := ⟨2, ![512, 16]⟩
abbrev S32x128 : Shape := ⟨2, ![32, 128]⟩
abbrev S32 : Shape := ⟨1, ![32]⟩
abbrev S32x16 : Shape := ⟨2, ![32, 16]⟩
abbrev S_ : Shape := ⟨0, ![]⟩
abbrev S16 : Shape := ⟨1, ![16]⟩
abbrev S1x16 : Shape := ⟨2, ![1, 16]⟩
abbrev S1x512x16 : Shape := ⟨3, ![1, 512, 16]⟩
abbrev S1x512 : Shape := ⟨2, ![1, 512]⟩
abbrev S512 : Shape := ⟨1, ![512]⟩
abbrev S1x1x512 : Shape := ⟨3, ![1, 1, 512]⟩

abbrev nBuf : Table → Nat
  | .hbm => 10
  | .local .tc .vmem => 20
  | .local .tc .smem => 3
  | .local .scVector .vmem => 4
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S90x128, .f32⟩
  | .hbm, ⟨3, _⟩ => ⟨S8x1x2048, .i32⟩
  | .hbm, ⟨4, _⟩ => ⟨S1x1, .f32⟩
  | .hbm, ⟨5, _⟩ => ⟨S2x1x2048, .f32⟩
  | .hbm, ⟨6, _⟩ => ⟨S512x16, .f32⟩
  | .hbm, ⟨7, _⟩ => ⟨S1x512x16, .f32⟩
  | .hbm, ⟨8, _⟩ => ⟨S1x1, .f32⟩
  | .hbm, ⟨9, _⟩ => ⟨S_, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S90x128, .f32⟩
  | .local .tc .vmem, ⟨9, _⟩ => ⟨S1x1x2048, .i32⟩
  | .local .tc .vmem, ⟨10, _⟩ => ⟨S1x1x2048, .i32⟩
  | .local .tc .vmem, ⟨11, _⟩ => ⟨S1x1x2048, .i32⟩
  | .local .tc .vmem, ⟨12, _⟩ => ⟨S1x1x2048, .i32⟩
  | .local .tc .vmem, ⟨13, _⟩ => ⟨S1x1x2048, .i32⟩
  | .local .tc .vmem, ⟨14, _⟩ => ⟨S1x1x2048, .i32⟩
  | .local .tc .vmem, ⟨15, _⟩ => ⟨S1x1x2048, .i32⟩
  | .local .tc .vmem, ⟨16, _⟩ => ⟨S1x1x2048, .i32⟩
  | .local .tc .vmem, ⟨17, _⟩ => ⟨S2x1x2048, .f32⟩
  | .local .tc .vmem, ⟨18, _⟩ => ⟨S2x1x2048, .f32⟩
  | .local .tc .vmem, ⟨19, _⟩ => ⟨S1x512x16, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .scVector .vmem, ⟨0, _⟩ => ⟨S32x128, .f32⟩
  | .local .scVector .vmem, ⟨1, _⟩ => ⟨S32, .i32⟩
  | .local .scVector .vmem, ⟨2, _⟩ => ⟨S32x128, .f32⟩
  | .local .scVector .vmem, ⟨3, _⟩ => ⟨S32x16, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg10_0 : Ref sig .tc := ⟨.vmem, 17, rfl⟩
abbrev cc2_stg1_0 : Ref sig .tc := ⟨.vmem, 18, rfl⟩
abbrev cc2_stg2_0 : Ref sig .tc := ⟨.vmem, 19, rfl⟩
abbrev cc0_stg9_0 : Ref sig .tc := ⟨.smem, 0, rfl⟩
abbrev cc2_stg0_0 : Ref sig .tc := ⟨.smem, 1, rfl⟩
abbrev cc2_stg3_0 : Ref sig .tc := ⟨.smem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc2_sem0_0 : DmaSem sig := 23
abbrev cc2_sem1_0 : DmaSem sig := 24
abbrev cc2_sem2_0 : DmaSem sig := 25
abbrev cc2_sem3_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S90x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![1, 16], ![false, false]⟩

def k1_off1 (i : grid1.Coords) : Fin 2 → Nat :=
  let c15872_i32 : BitVec 32 := 15872#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi c15872_i32 v2
  let c0_i32 : BitVec 32 := 0#32
  ![v3.toNat, 0]
def k1_off2 (i : grid1.Coords) : Fin 1 → Nat :=
  let c15872_i32 : BitVec 32 := 15872#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi c15872_i32 v2
  ![v3.toNat]
@[reducible] def k1_t1_loop : Scf.Loop 32 :=
  let c0_i32_8 : BitVec 32 := 0#32
  let c16_i32 : BitVec 32 := 16#32
  let v10 : BitVec 32 := Scalar.addi c0_i32_8 c16_i32
  let c1_i32_9 : BitVec 32 := 1#32
  ⟨c0_i32_8, v10, c1_i32_9⟩
def k1_off3 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v18 : Index := Scalar.indexCast v13
  let c0 : Index := 0#32
  ![v18.toNat, 0]
def k1_off4 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v26 : Index := Scalar.indexCast v13
  let c16 : Index := 16#32
  ![v26.toNat, 16]
def k1_off5 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v34 : Index := Scalar.indexCast v13
  let c32 : Index := 32#32
  ![v34.toNat, 32]
def k1_off6 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v42 : Index := Scalar.indexCast v13
  let c48 : Index := 48#32
  ![v42.toNat, 48]
def k1_off7 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v50 : Index := Scalar.indexCast v13
  let c64 : Index := 64#32
  ![v50.toNat, 64]
def k1_off8 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v58 : Index := Scalar.indexCast v13
  let c80 : Index := 80#32
  ![v58.toNat, 80]
def k1_off9 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v66 : Index := Scalar.indexCast v13
  let c96 : Index := 96#32
  ![v66.toNat, 96]
def k1_off10 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v74 : Index := Scalar.indexCast v13
  let c112 : Index := 112#32
  ![v74.toNat, 112]
def k1_off11 (k1_t1 : Fin k1_t1_loop.trips) (c0_i32_12 : BitVec 32) : Fin 2 → Nat :=
  let c0_i32_8 : BitVec 32 := 0#32
  let c1_i32_9 : BitVec 32 := 1#32
  let arg12 : BitVec 32 := Scf.iv c0_i32_8 c1_i32_9 k1_t1
  let c2_i32 : BitVec 32 := 2#32
  let v12 : BitVec 32 := Scalar.muli arg12 c2_i32
  let v13 : BitVec 32 := Scalar.addi v12 c0_i32_12
  let v85 : Index := Scalar.indexCast v13
  let c0_24 : Index := 0#32
  ![v85.toNat, 0]
def k1_off12 (i : grid1.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c32_i32_11 : BitVec 32 := 32#32
  let v11 : BitVec 32 := Scalar.muli v1 c32_i32_11
  let c0_i32_12_r1 : BitVec 32 := 0#32
  ![v11.toNat, 0]
abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2x1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .smem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S8x1x2048 : S16384.ShapeCasts S8x1x2048
  inb_S90x128_S90x128_0_0 : ∀ a, (![0, 0] : Fin 2 → Nat) a + S90x128.size a ≤ S90x128.size a
  h_S90x128 : 0 < S90x128.numel
  reduces_S90x128_S90 : S90x128.Reduces [1] S90
  shapeCasts_S90_S90x1 : S90.ShapeCasts S90x1
  broadcasts_S90x1_S90x128 : S90x1.Broadcasts S90x128
  inb_S2048x128_S2048x128_0_0 : ∀ a, (![0, 0] : Fin 2 → Nat) a + S2048x128.size a ≤ S2048x128.size a
  h_S2048x128 : 0 < S2048x128.numel
  iota_S90x2048_d0_w32 : S90x2048.Iotas .tc 32 [0]
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S90x2048 : S1x2048.Broadcasts S90x2048
  reduces_S90x2048_S2048 : S90x2048.Reduces [0] S2048
  reduces_S1x2048_S1 : S1x2048.Reduces [1] S1
  shapeCasts_S1_S1x1 : S1.ShapeCasts S1x1
  inpos_S1x1_p0_0 : ∀ a, (![0, 0] : Fin 2 → Nat) a < S1x1.size a
  iota_S1x2048_d1_w32 : S1x2048.Iotas .tc 32 [1]
  shapeCasts_S1x2048_S2048 : S1x2048.ShapeCasts S2048
  inb_S2x1x2048_S1x1x2048_0_0_0 : ∀ a, (![0, 0, 0] : Fin 3 → Nat) a + S1x1x2048.size a ≤ S2x1x2048.size a
  shapeCasts_S2048_S1x1x2048 : S2048.ShapeCasts S1x1x2048
  shapeCasts_S90x1_S90x1 : S90x1.ShapeCasts S90x1
  broadcasts_S90x1_S90x2048 : S90x1.Broadcasts S90x2048
  inb_S2x1x2048_S1x1x2048_1_0_0 : ∀ a, (![1, 0, 0] : Fin 3 → Nat) a + S1x1x2048.size a ≤ S2x1x2048.size a
  inb_S1x1_S1x1_0_0 : ∀ a, (![0, 0] : Fin 2 → Nat) a + S1x1.size a ≤ S1x1.size a
  numel1_S1x1 : S1x1.numel = 1
  gathers_S90x128_S32x128 : S90x128.Gathers 0 S32x128
  h_S1x16 : 0 < S1x16.numel
  shapeCasts_S1x16_S16 : S1x16.ShapeCasts S16
  shapeCasts_S16_S1x16 : S16.ShapeCasts S1x16
  shapeCasts_S512x16_S1x512x16 : S512x16.ShapeCasts S1x512x16
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  shapeCasts_S1x512_S512 : S1x512.ShapeCasts S512
  inb_S2x1x2048_S1x1x512_0_0_1536 : ∀ a, (![0, 0, 1536] : Fin 3 → Nat) a + S1x1x512.size a ≤ S2x1x2048.size a
  h_S1x1x512 : 0 < S1x1x512.numel
  shapeCasts_S1x1x512_S512 : S1x1x512.ShapeCasts S512
  inb_S2x1x2048_S1x1x512_1_0_1536 : ∀ a, (![1, 0, 1536] : Fin 3 → Nat) a + S1x1x512.size a ≤ S2x1x2048.size a
  shapeCasts_S512_S1x512 : S512.ShapeCasts S1x512
  reduces_S1x512_S1 : S1x512.Reduces [1] S1
  shapeCasts_S1x1_S_ : S1x1.ShapeCasts S_
  dot_S90x128_S2048x128_S90x2048_1_1_0_0_n_n_wf : DotDims.WF S90x128 S2048x128 S90x2048 [1] [1] [0] [0] [] []
  dot_S1x16_S512x16_S1x512_1_1_0_0_n_n_wf : DotDims.WF S1x16 S512x16 S1x512 [1] [1] [0] [0] [] []
  hcc1_scratch4 : 19 + S_.numel ≤ 27
  hcc1_scratch5 : 20 + S_.numel ≤ 27
  hcc1_scoped0 : 21 + S_.numel ≤ 27
  hcc1_scoped1 : 22 + S_.numel ≤ 27
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S90x128.size a ≤ S90x128.size a
  hwx0_4 : ∀ i : grid0.Coords, EltTy.bits .f32 = 32 ∨ (Rect.block (s := S90x128) S90x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x2048.size a
  hwx0_5 : ∀ i : grid0.Coords, EltTy.bits .i32 = 32 ∨ (Rect.block (s := S8x1x2048) S1x1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S8x1x2048.size a
  hwx0_6 : ∀ i : grid0.Coords, EltTy.bits .i32 = 32 ∨ (Rect.block (s := S8x1x2048) S1x1x2048.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S8x1x2048.size a
  hwx0_7 : ∀ i : grid0.Coords, EltTy.bits .i32 = 32 ∨ (Rect.block (s := S8x1x2048) S1x1x2048.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048.size a ≤ S8x1x2048.size a
  hwx0_8 : ∀ i : grid0.Coords, EltTy.bits .i32 = 32 ∨ (Rect.block (s := S8x1x2048) S1x1x2048.size (cc0_transform_8 i) (hinb0_8 i)).WholeWords (EltTy.packing .i32)
  hstage0_9 : ∀ j, (stage0_9 j).IsWhole
  nbuf0_9 : grid0.bufCount reads0_9 false = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x1x2048.size a ≤ S2x1x2048.size a
  hwx0_10 : ∀ i : grid0.Coords, EltTy.bits .f32 = 32 ∨ (Rect.block (s := S2x1x2048) S2x1x2048.size (cc0_transform_10 i) (hinb0_10 i)).WholeWords (EltTy.packing .f32)
  hcore1 : grid1.bound 0 ≤ τ.nSC
  hsub1 : grid1.bound 1 ≤ τ.nSub
  k1_off1_inb : ∀ i : grid1.Coords, ∀ a, (k1_off1 i) a + S32x128.size a ≤ S16384x128.size a
  k1_off2_inb : ∀ i : grid1.Coords, ∀ a, (k1_off2 i) a + S32.size a ≤ S16384.size a
  k1_t1_ok : k1_t1_loop.OK
  k1_off3_inb : ∀ k1_t1 : Fin k1_t1_loop.trips, ∀ (r : Fin 2), ∀ a, (k1_off3 k1_t1 (BitVec.ofNat 32 r.val)) a + S1x16.size a ≤ S32x128.size a
  k1_off4_inb : ∀ k1_t1 : Fin k1_t1_loop.trips, ∀ (r : Fin 2), ∀ a, (k1_off4 k1_t1 (BitVec.ofNat 32 r.val)) a + S1x16.size a ≤ S32x128.size a
  k1_off5_inb : ∀ k1_t1 : Fin k1_t1_loop.trips, ∀ (r : Fin 2), ∀ a, (k1_off5 k1_t1 (BitVec.ofNat 32 r.val)) a + S1x16.size a ≤ S32x128.size a
  k1_off6_inb : ∀ k1_t1 : Fin k1_t1_loop.trips, ∀ (r : Fin 2), ∀ a, (k1_off6 k1_t1 (BitVec.ofNat 32 r.val)) a + S1x16.size a ≤ S32x128.size a
  k1_off7_inb : ∀ k1_t1 : Fin k1_t1_loop.trips, ∀ (r : Fin 2), ∀ a, (k1_off7 k1_t1 (BitVec.ofNat 32 r.val)) a + S1x16.size a ≤ S32x128.size a
  k1_off8_inb : ∀ k1_t1 : Fin k1_t1_loop.trips, ∀ (r : Fin 2), ∀ a, (k1_off8 k1_t1 (BitVec.ofNat 32 r.val)) a + S1x16.size a ≤ S32x128.size a
  k1_off9_inb : ∀ k1_t1 : Fin k1_t1_loop.trips, ∀ (r : Fin 2), ∀ a, (k1_off9 k1_t1 (BitVec.ofNat 32 r.val)) a + S1x16.size a ≤ S32x128.size a
  k1_off10_inb : ∀ k1_t1 : Fin k1_t1_loop.trips, ∀ (r : Fin 2), ∀ a, (k1_off10 k1_t1 (BitVec.ofNat 32 r.val)) a + S1x16.size a ≤ S32x128.size a
  k1_off11_inb : ∀ k1_t1 : Fin k1_t1_loop.trips, ∀ (r : Fin 2), ∀ a, (k1_off11 k1_t1 (BitVec.ofNat 32 r.val)) a + S1x16.size a ≤ S32x16.size a
  k1_off12_inb : ∀ i : grid1.Coords, ∀ a, (k1_off12 i) a + S32x16.size a ≤ S512x16.size a
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x1x2048.size a ≤ S2x1x2048.size a
  hwx2_1 : ∀ i : grid2.Coords, EltTy.bits .f32 = 32 ∨ (Rect.block (s := S2x1x2048) S2x1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512x16.size a ≤ S1x512x16.size a
  hwx2_2 : ∀ i : grid2.Coords, EltTy.bits .f32 = 32 ∨ (Rect.block (s := S1x512x16) S1x512x16.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

abbrev cc1_scratch4 : DmaSems sig S_ := SemArray.consecutive 19 S_ hcc1_scratch4
abbrev cc1_scratch5 : DmaSems sig S_ := SemArray.consecutive 20 S_ hcc1_scratch5
abbrev cc1_scoped0 : DmaSems sig S_ := SemArray.consecutive 21 S_ hcc1_scoped0
abbrev cc1_scoped1 : DmaSems sig S_ := SemArray.consecutive 22 S_ hcc1_scoped1
def dot_S90x128_S2048x128_S90x2048_1_1_0_0_n_n : DotDims S90x128 S2048x128 S90x2048 where
  lhsContracting := [1]
  rhsContracting := [1]
  lhsNonContracting := [0]
  rhsNonContracting := [0]
  lhsBatch := []
  rhsBatch := []
  wf := dot_S90x128_S2048x128_S90x2048_1_1_0_0_n_n_wf
def dot_S1x16_S512x16_S1x512_1_1_0_0_n_n : DotDims S1x16 S512x16 S1x512 where
  lhsContracting := [1]
  rhsContracting := [1]
  lhsNonContracting := [0]
  rhsNonContracting := [0]
  lhsBatch := []
  rhsBatch := []
  wf := dot_S1x16_S512x16_S1x512_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S90x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_0) S1x1.size cc0_transform_9 reads0_9 true false 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_1) S2x1x2048.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win2_0 : Pipeline.Window sig grid2 :=
  Pipeline.Window.ofSpec (Memref.whole main_v1_0) S1x1.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S2x1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x512x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x128 : Shape := ⟨2, ![16384, 128]⟩
abbrev S16384 : Shape := ⟨1, ![16384]⟩
abbrev S90x128 : Shape := ⟨2, ![90, 128]⟩
abbrev S_ : Shape := ⟨0, ![]⟩
abbrev S90 : Shape := ⟨1, ![90]⟩
abbrev S90x1 : Shape := ⟨2, ![90, 1]⟩
abbrev S128x90 : Shape := ⟨2, ![128, 90]⟩
abbrev S16384x90 : Shape := ⟨2, ![16384, 90]⟩
abbrev S16384x1 : Shape := ⟨2, ![16384, 1]⟩
abbrev S16384x2 : Shape := ⟨2, ![16384, 2]⟩
abbrev S1x90 : Shape := ⟨2, ![1, 90]⟩

abbrev nBuf : Space → Nat
  | .hbm => 59
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S90x128, .f32⟩
  | .hbm, ⟨3, _⟩ => ⟨S90x128, .f32⟩
  | .hbm, ⟨4, _⟩ => ⟨S_, .f32⟩
  | .hbm, ⟨5, _⟩ => ⟨S90, .f32⟩
  | .hbm, ⟨6, _⟩ => ⟨S90x1, .f32⟩
  | .hbm, ⟨7, _⟩ => ⟨S90x1, .f32⟩
  | .hbm, ⟨8, _⟩ => ⟨S_, .f32⟩
  | .hbm, ⟨9, _⟩ => ⟨S90x1, .f32⟩
  | .hbm, ⟨10, _⟩ => ⟨S90x1, .f32⟩
  | .hbm, ⟨11, _⟩ => ⟨S90x128, .f32⟩
  | .hbm, ⟨12, _⟩ => ⟨S90x128, .f32⟩
  | .hbm, ⟨13, _⟩ => ⟨S128x90, .f32⟩
  | .hbm, ⟨14, _⟩ => ⟨S16384x90, .f32⟩
  | .hbm, ⟨15, _⟩ => ⟨S_, .f32⟩
  | .hbm, ⟨16, _⟩ => ⟨S16384x90, .f32⟩
  | .hbm, ⟨17, _⟩ => ⟨S16384x90, .f32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1, .i32⟩
  | .hbm, ⟨35, _⟩ => ⟨S16384x2, .i32⟩
  | .hbm, ⟨36, _⟩ => ⟨S16384, .f32⟩
  | .hbm, ⟨37, _⟩ => ⟨S16384x1, .i32⟩
  | .hbm, ⟨38, _⟩ => ⟨S1x90, .i32⟩
  | .hbm, ⟨39, _⟩ => ⟨S16384x90, .i32⟩
  | .hbm, ⟨40, _⟩ => ⟨S16384x90, .i32⟩
  | .hbm, ⟨41, _⟩ => ⟨S16384x90, .i1⟩
  | .hbm, ⟨42, _⟩ => ⟨S_, .f32⟩
  | .hbm, ⟨43, _⟩ => ⟨S_, .f32⟩
  | .hbm, ⟨44, _⟩ => ⟨S16384x90, .f32⟩
  | .hbm, ⟨45, _⟩ => ⟨S16384x90, .f32⟩
  | .hbm, ⟨46, _⟩ => ⟨S_, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_v24 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call3_cst : Ref sig .tc := ⟨.hbm, 52, rfl⟩
abbrev main_call3_v0 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩

abbrev nD : Nat := 1
abbrev τ : Topo := Topo.v7x

variable {F : FTy → Type} [FloatOps F]

class Facts₀ : Prop where
  reducesTo_S90x128_S90_d1 : S90x128.ReducesTo [1] S90
  h_S_ : 0 < S_.numel
  bcast_S90_S90x1_0 : S90.BroadcastsInDim S90x1 (![0] : Fin 1 → Fin S90x1.rank)
  bcast_S_S90x1 : S_.BroadcastsInDim S90x1 (![] : Fin 0 → Fin S90x1.rank)
  bcast_S90x1_S90x128_0_1 : S90x1.BroadcastsInDim S90x128 (![0, 1] : Fin 2 → Fin S90x128.rank)
  transposes_S90x128_S128x90_1_0 : S90x128.Transposes [1, 0] S128x90
  bcast_S_S16384x90 : S_.BroadcastsInDim S16384x90 (![] : Fin 0 → Fin S16384x90.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bcast_S16384x1_S16384x90_0_1 : S16384x1.BroadcastsInDim S16384x90 (![0, 1] : Fin 2 → Fin S16384x90.rank)
  bcast_S1x90_S16384x90_0_1 : S1x90.BroadcastsInDim S16384x90 (![0, 1] : Fin 2 → Fin S16384x90.rank)
  reducesTo_S16384x90_S16384_d1 : S16384x90.ReducesTo [1] S16384
  reducesTo_S16384_S_d0 : S16384.ReducesTo [0] S_
  dot_S16384x128_S128x90_S16384x90_1_0_0_1_n_n_wf : DotDims.WF S16384x128 S128x90 S16384x90 [1] [0] [0] [1] [] []
  gather_S16384x90_S16384x2_S16384_n_01_n_n_01_1_11_wf : GatherDims.WF S16384x90 S16384x2 S16384 [] [0, 1] [] [0, 1] [] 1 ![1, 1]

variable [Facts₀]

def dot_S16384x128_S128x90_S16384x90_1_0_0_1_n_n : DotDims S16384x128 S128x90 S16384x90 where
  lhsContracting := [1]
  rhsContracting := [0]
  lhsNonContracting := [0]
  rhsNonContracting := [1]
  lhsBatch := []
  rhsBatch := []
  wf := dot_S16384x128_S128x90_S16384x90_1_0_0_1_n_n_wf
def gather_S16384x90_S16384x2_S16384_n_01_n_n_01_1_11 : GatherDims S16384x90 S16384x2 S16384 where
  offsetDims := []
  collapsedSliceDims := [0, 1]
  operandBatchingDims := []
  startIndicesBatchingDims := []
  startIndexMap := [0, 1]
  indexVectorDim := 1
  sliceSizes := ![1, 1]
  wf := gather_S16384x90_S16384x2_S16384_n_01_n_n_01_1_11_wf

class Facts : Prop extends Facts₀ where

variable [Facts]
-- ==== Proof.RefFrame.lean ====
import proofs.«217715_g15917148799621_cont_week2b_1297_29_alg».proof.Defs
import proofs.«217715_g15917148799621_cont_week2b_1297_29_alg».proof.Proof.Gen.ReferenceIdeal
import proofs.«217715_g15917148799621_cont_week2b_1297_29_alg».proof.Proof.Gen.ReferenceIdeal.Run
import proofs.«217715_g15917148799621_cont_week2b_1297_29_alg».proof.Proof.Gen.ReferenceIdeal.Read
import proofs.«217715_g15917148799621_cont_week2b_1297_29_alg».proof.Proof.Gen.Pre_input_domain

noncomputable section

open Idealize.ShloMosaic Idealize.ShloMosaic.TcCoe Idealize.SL.Sem

namespace Cert.Proof.RefFrame

/-- The reference's generated run with the value dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Preserves.lean ====
import proofs.«217715_g15917148799621_cont_week2b_1297_29_alg».proof.Defs

noncomputable section

open Idealize.ShloMosaic

namespace Cert.Proof.Preserves

/-- The table gives the name minus infinity, which is what the printed constant denotes at the ideal instance. -/
theorem site : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal := ⟨site, site, site, site⟩

end Cert.Proof.Preserves

end
-- ==== Proof.Setup.lean ====
import proofs.«217715_g15917148799621_cont_week2b_1297_29_alg».proof.KernelIdeal
import proofs.«217715_g15917148799621_cont_week2b_1297_29_alg».proof.Proof.Gen.KernelIdeal
import proofs.«217715_g15917148799621_cont_week2b_1297_29_alg».proof.Proof.Gen.KernelIdeal.Skeleton
import proofs.«217715_g15917148799621_cont_week2b_1297_29_alg».proof.Proof.Gen.KernelIdeal.Launch
import proofs.«217715_g15917148799621_cont_week2b_1297_29_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

abbrev ΛP : Labels := Pipeline.Sig Λ₀ (Fin 2) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [FloatOps F] [Named F] : (K (F := F)).nSub 0 = 16 := rfl
theorem nCore_zero [FloatOps F] [Named F] : (K (F := F)).nCore 0 = 1 := rfl

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) :=
  (Emb.inl : Emb UP (UP × Counters)).trans (embR (A := UH) (B := UP × Counters))

instance EP_landsIn : (EP : Emb UP 𝕄).LandsIn (upEmb : UEmb _ 𝕄) := by unfold EP embR; infer_instance

variable (m : (ℓ : Loc nD τ sig) → Buf (Elt F) ℓ) (ρ : Dev nD → PrngReg)

abbrev xLoc (d : Dev nD) : Loc nD τ sig := (SparseCore.T d).loc main_arg0
abbrev lLoc (d : Dev nD) : Loc nD τ sig := (SparseCore.T d).loc main_arg1
abbrev cLoc (d : Dev nD) : Loc nD τ sig := (SparseCore.T d).loc main_arg2
abbrev oLoc (d : Dev nD) : Loc nD τ sig := (SparseCore.T d).loc main_v2

theorem xRect_inb (i : Fin 16) : ∀ a, (![15872 + 32 * i.val, 0] : Fin 2 → Nat) a + S32x128.size a ≤ S16384x128.size a := by
  have := i.isLt; intro a; fin_cases a <;> simp <;> omega
theorem lRect_inb (i : Fin 16) : ∀ a, (![15872 + 32 * i.val] : Fin 1 → Nat) a + S32.size a ≤ S16384.size a := by
  have := i.isLt; intro a; fin_cases a <;> simp <;> omega
theorem oRect_inb (i : Fin 16) : ∀ a, (![32 * i.val, 0] : Fin 2 → Nat) a + S32x16.size a ≤ S512x16.size a := by
  have := i.isLt; intro a; fin_cases a <;> simp <;> omega
abbrev xRect (i : Fin 16) : Rect S16384x128 := Rect.unit (s := S16384x128) ![15872 + 32 * i.val, 0] S32x128.size (xRect_inb i)
abbrev lRect (i : Fin 16) : Rect S16384 := Rect.unit (s := S16384) ![15872 + 32 * i.val] S32.size (lRect_inb i)
abbrev oRect (i : Fin 16) : Rect S512x16 := Rect.unit (s := S512x16) ![32 * i.val, 0] S32x16.size (oRect_inb i)
abbrev xSet (i : Fin 16) : Finset S16384x128.Idx := (xRect i).set
abbrev lSet (i : Fin 16) : Finset S16384.Idx := (lRect i).set
abbrev oSet (i : Fin 16) : Finset S512x16.Idx := (oRect i).set

variable [FloatOps F] [Named F]

variable (ov : (d : Dev nD) → Buf (Elt F) (oLoc d))

abbrev xPts (d : Dev nD) : sProp 𝕄 := xLoc d ↦{fullShare} m (xLoc d)
abbrev lPts (d : Dev nD) : sProp 𝕄 := lLoc d ↦{fullShare} m (lLoc d)
abbrev cPts (d : Dev nD) : sProp 𝕄 := cLoc d ↦{fullShare} m (cLoc d)
abbrev oPts (d : Dev nD) (f : Buf (Elt F) (oLoc d)) : sProp 𝕄 := oLoc d ↦{fullShare} f
abbrev xRowPts (d : Dev nD) (i : Fin 16) : sProp 𝕄 := xLoc d ↦[xSet i]{fullShare} m (xLoc d)
abbrev lRowPts (d : Dev nD) (i : Fin 16) : sProp 𝕄 := lLoc d ↦[lSet i]{fullShare} m (lLoc d)
abbrev cTokPts (d : Dev nD) (i : Fin 16) : sProp 𝕄 := cLoc d ↦{shareTok fullShare 16 i} m (cLoc d)
abbrev oRowPts (d : Dev nD) (i : Fin 16) (f : Buf (Elt F) (oLoc d)) : sProp 𝕄 := oLoc d ↦[oSet i]{fullShare} f

/-- What each handshake carries: the call takes the arguments and the result array and returns them; tile i takes its rows and a read share of the centers. -/
def P : (K (F := F)).Pay (nD := nD) (Val := Elt F) (Name := ℕ) (U := UU) where
  st := fun _ d _ => iprop(xPts m d ∗ lPts m d ∗ cPts m d ∗ ∃ f, oPts d f)
  dn := fun _ d _ => iprop(xPts m d ∗ lPts m d ∗ cPts m d ∗ oPts d (ov d))
  go := fun q d _ i => match q with
    | 0 => iprop(xRowPts m d (Fin.cast nSub_zero i) ∗ lRowPts m d (Fin.cast nSub_zero i) ∗ cTokPts m d (Fin.cast nSub_zero i)
        ∗ ∃ f, oRowPts d (Fin.cast nSub_zero i) f)
  td := fun q d _ i => match q with
    | 0 => iprop(xRowPts m d (Fin.cast nSub_zero i) ∗ lRowPts m d (Fin.cast nSub_zero i) ∗ cTokPts m d (Fin.cast nSub_zero i)
        ∗ oRowPts d (Fin.cast nSub_zero i) (ov d))
  x := fun _ _ => iprop(emp)

instance P_storable : (P (F := F) m ov).IsStorable where
  st _ d c := by unfold P; infer_instance
  dn _ d c := by unfold P; infer_instance
  go q _ _ _ := match q with | 0 => by unfold P; infer_instance
  td q _ _ _ := match q with | 0 => by unfold P; infer_instance

end Cert.KernelIdeal.Setup

end
-- ==== Proof.R0Body.lean ====
import proofs.«217715_g15917148799621_cont_week2b_1297_29_alg».proof.Proof.Gen.KernelIdeal.Launch
import proofs.«217715_g15917148799621_cont_week2b_1297_29_alg».proof.Proof.Gen.KernelIdeal.Skeleton
import proofs.«217715_g15917148799621_cont_week2b_1297_29_alg».proof.Proof.Gen.KernelIdeal.Points

import Idealize.ShloMosaic.Lib.Pipeline.FrameBody
import Idealize.ShloMosaic.Lib.Pipeline.Value
import Idealize.ShloMosaic.Lib.SparseCore.Cells
import Idealize.ShloMosaic.Lib.Ring
import Idealize.ShloMosaic.Lib.Transfers
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable {U : Type} [URA U]

local notation "𝕄" => MT nD τ sig (SparseCore.Cfg.HIx 1) (Elt F) ℕ U ℕ

variable (V : (c : Dev nD) → (b : Ref sig .tc) → Buf (Elt F) ((c : Thread nD τ).loc b))
variable (O : CellTallies nD τ sig (SparseCore.Cfg.HIx 1))
variable (B : Set (SemLoc sig × SparseCore.Cfg.HIx 1))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val % 2 = 0 :=
  (by decide +kernel : ∀ t : Fin grid0.N, cond0 (grid0.coords t) ↔ t.val % 2 = 0)

abbrev rowLo : Rect S2x1x2048 := Rect.unit (s := S2x1x2048) ![0, 0, 0] S1x1x2048.size inb_S2x1x2048_S1x1x2048_0_0_0
abbrev rowHi : Rect S2x1x2048 := Rect.unit (s := S2x1x2048) ![1, 0, 0] S1x1x2048.size inb_S2x1x2048_S1x1x2048_1_0_0

def partOf (i0 : BitVec 32) (xa xb xc xd : Vec F S2048x128 .f32) (cen : Vec F S90x128 .f32) (la lb lc ld : Vec F S1x1x2048 .i32) : F .f32 :=
  k0_pay23 i0 (k0_pay12 cen xb lb) (k0_pay13 (k0_pay10 cen xb) (k0_pay11 lb))
    (k0_pay16 (k0_pay5 cen) xc lc) (k0_pay17 (k0_pay5 cen) xc lc)
    (k0_pay20 (k0_pay5 cen) xd ld) (k0_pay21 (k0_pay5 cen) xd ld)
    (k0_pay22 (k0_pay8 cen xa la) (k0_pay9 cen xa la))

def miOf (xd : Vec F S2048x128 .f32) (cen : Vec F S90x128 .f32) (ld : Vec F S1x1x2048 .i32) : Vec F S2x1x2048 .f32 :=
  View.canon [⟨rowHi, k0_pay2 (k0_pay4 cen) (k0_pay19 ld)⟩, ⟨rowLo, k0_pay1 (k0_pay20 (k0_pay5 cen) xd ld)⟩]

abbrev cell0 : S1x1.Idx := Shape.Idx.first (s := S1x1) (numel1_S1x1.symm ▸ Nat.one_pos)

def accA (p : F .f32) : Vec F S1x1 .f32 := fun _ => k0_pay3 p (Scalar.ofBits .f32 0x00000000#32 : F .f32)

def accB (p : F .f32) (prev : Vec F S1x1 .f32) : Vec F S1x1 .f32 := fun _ => k0_pay3 p (prev cell0)

abbrev i0At (t : Fin cfg0.N) : BitVec 32 := BitVec.ofNat 32 (grid0.coords t 0).val

def partAt (c : Dev nD) (t : Fin cfg0.N) : F .f32 :=
  partOf (i0At t) (iblk0 V c 0 t) (iblk0 V c 1 t) (iblk0 V c 2 t) (iblk0 V c 3 t) (iblk0 V c 4 t)
    (iblk0 V c 5 t) (iblk0 V c 6 t) (iblk0 V c 7 t) (iblk0 V c 8 t)

def miAt (c : Dev nD) (t : Fin cfg0.N) : Vec F S2x1x2048 .f32 :=
  miOf (iblk0 V c 3 t) (iblk0 V c 4 t) (iblk0 V c 8 t)

def accAt (c : Dev nD) : (n : ℕ) → n < cfg0.N → Vec F S1x1 .f32
  | 0, hn => accA (partAt V c ⟨0, hn⟩)
  | n + 1, hn => accB (partAt V c ⟨n + 1, hn⟩) (accAt c n (Nat.lt_of_succ_lt hn))

theorem hz2 : (![0, 0] : Fin 2 → Nat) = fun _ => 0 := funext fun a => by fin_cases a <;> rfl
theorem hz3 : (![0, 0, 0] : Fin 3 → Nat) = fun _ => 0 := funext fun a => by fin_cases a <;> rfl

theorem cover_mi (p1 p0 : Vec F S1x1x2048 .f32) (y : S2x1x2048.Idx) :
    ∃ pc ∈ ([⟨rowHi, p1⟩, ⟨rowLo, p0⟩] : List (View.Piece (Elt F) S2x1x2048 .f32)), y ∈ pc.1.set :=
  View.cover_of_tiled [⟨rowHi, p1⟩, ⟨rowLo, p0⟩] S1x1x2048.size (by rfl) y

theorem cover_acc (p : S1x1.Idx → Elt F .f32) (L : List (View.Piece (Elt F) S1x1 .f32)) (y : S1x1.Idx) :
    ∃ pc ∈ ((⟨Rect.unit ![0, 0] S1x1.size inb_S1x1_S1x1_0_0, p⟩ : View.Piece (Elt F) S1x1 .f32) :: L), y ∈ pc.1.set :=
  ⟨_, List.mem_cons.mpr (.inl rfl), View.mem_set_unit_zero hz2 inb_S1x1_S1x1_0_0 y⟩

/-- The accumulator a grid point leaves: a fresh one at the first point, the previous one plus this point's part after it. -/
def accOf (i : grid0.Coords) (p : F .f32) (prev : Vec F S1x1 .f32) : Vec F S1x1 .f32 :=
  if cond0 i then accA p else accB p prev

set_option maxHeartbeats 1600000 in

/-- Run once, the body stores the named pure terms of what it loads, whichever case of the first-point test holds. -/
theorem sound_kernel0 (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S90x128 .f32) (harg5 : arg5.IsWhole) (arg6 : Memref sig .tc .vmem S1x1x2048 .i32) (harg6 : arg6.IsWhole) (arg7 : Memref sig .tc .vmem S1x1x2048 .i32) (harg7 : arg7.IsWhole) (arg8 : Memref sig .tc .vmem S1x1x2048 .i32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2x1x2048 .f32) (harg11 : arg11.IsWhole)
    (xa xb xc xd : Vec F S2048x128 .f32) (cen : Vec F S90x128 .f32) (la lb lc ld : Vec F S1x1x2048 .i32) (prev : Vec F S1x1 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd
        ∗ owns (c : Thread nD τ) arg5 fullShare cen
        ∗ owns (c : Thread nD τ) arg6 fullShare la ∗ owns (c : Thread nD τ) arg7 fullShare lb ∗ owns (c : Thread nD τ) arg8 fullShare lc ∗ owns (c : Thread nD τ) arg9 fullShare ld
        ∗ owns (c : Thread nD τ) arg10 fullShare prev ∗ (∃ d, owns (c : Thread nD τ) arg11 fullShare d)
        ∗ (iprop(owns (c : Thread nD τ) arg1 fullShare xa ∗ owns (c : Thread nD τ) arg2 fullShare xb ∗ owns (c : Thread nD τ) arg3 fullShare xc ∗ owns (c : Thread nD τ) arg4 fullShare xd
            ∗ owns (c : Thread nD τ) arg5 fullShare cen
            ∗ owns (c : Thread nD τ) arg6 fullShare la ∗ owns (c : Thread nD τ) arg7 fullShare lb ∗ owns (c : Thread nD τ) arg8 fullShare lc ∗ owns (c : Thread nD τ) arg9 fullShare ld
            ∗ owns (c : Thread nD τ) arg10 fullShare (accOf i (partOf (BitVec.ofNat 32 (i 0).val) xa xb xc xd cen la lb lc ld) prev)
            ∗ owns (c : Thread nD τ) arg11 fullShare (miOf xd cen ld)) -∗ K ⟨⟩))
      ⊢ wp frame (wpE (defs₀ (F := F)) Variants.none c none) E (cc0__tc_main_kernel i arg1 harg1 arg2 harg2 arg3 harg3 arg4 harg4 arg5 harg5 arg6 harg6 arg7 harg7 arg8 harg8 arg9 harg9 arg10 harg10 arg11 harg11) K := by
  simp only [cc0__tc_main_kernel_eq_skeleton]; unfold cc0__tc_main_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  by_cases hc0 : cond0 i <;>
  · sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr
      swap; · iexact H10
      ipureintro
      unfold accOf partOf
      first
        | (rw [if_pos hc0, View.read_writes_eq_canon _ _ _ (cover_acc _ _), View.canon_cons_unit_zero hz2]; unfold accA)
        | (rw [if_neg hc0, View.read_writes_eq_canon _ _ _ (cover_acc _ _), View.canon_unit_zero hz2]; unfold accB)
      sl_unfold_run_names
      simp only [View.readAt_eq_ld, Memref.IsWhole.read_unread, View.ld_unit_zero (S := S90x128) hz2, View.ld_unit_zero (S := S2048x128) hz2, View.ld_unit_zero (S := S1x1x2048) hz3, View.ld_unit_zero (S := S1x1) hz2, View.readCov_unit_zero (S := S1x1) _ hz2]
      first
        | exact funext fun _ => congrArg₂ (k0_pay3 (F := F)) rfl rfl
        | exact funext fun _ => congrArg₂ (k0_pay3 (F := F)) rfl (congrFun (View.ld_unit_zero (S := S1x1) hz2 inb_S1x1_S1x1_0_0 prev) _)
    iexists _; isplitr
    swap; · iexact H11
    ipureintro
    rw [View.read_writes_eq_canon _ _ _ (cover_mi _ _)]
    unfold miOf
    sl_unfold_run_names
    simp only [View.readAt_eq_ld, Memref.IsWhole.read_unread, View.ld_unit_zero (S := S90x128) hz2, View.ld_unit_zero (S := S2048x128) hz2, View.ld_unit_zero (S := S1x1x2048) hz3, View.ld_unit_zero (S := S1x1) hz2, View.readCov_unit_zero (S := S1x1) _ hz2]

def Φ0 (c : Dev nD) : sProp 𝕄 :=
  iprop(Pipeline.scopedRest (Ix := SparseCore.Cfg.HIx 1) (Name := ℕ) (U := U) (Lvl := ℕ) (Val := Elt F) spec0 c ∗ ∃ r, prngReg c r)

def dat0 (c : Dev nD) : Dat τ (Elt F) (SparseCore.Cfg.HIx 1) ℕ U ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => accAt V c t.val t.isLt
    | ⟨10, _⟩ => miAt V c t
  Φ _ := Φ0 c
  q w := match w with
    | ⟨0, _⟩ => Transfers.shareTok fullShare 4 0
    | ⟨1, _⟩ => Transfers.shareTok fullShare 4 1
    | ⟨2, _⟩ => Transfers.shareTok fullShare 4 2
    | ⟨3, _⟩ => Transfers.shareTok fullShare 4 3
    | ⟨4, _⟩ => fullShare
    | ⟨5, _⟩ => Transfers.shareTok fullShare 4 0
    | ⟨6, _⟩ => Transfers.shareTok fullShare 4 1
    | ⟨7, _⟩ => Transfers.shareTok fullShare 4 2
    | ⟨8, _⟩ => Transfers.shareTok fullShare 4 3
    | ⟨9, _⟩ => fullShare
    | ⟨10, _⟩ => fullShare
  owed _ := O
  recorded _ := B

theorem A_eq0 (c : Dev nD) (w : Fin cfg0.W) : (dat0 (U := U) V O B c).A w = V c (Pipeline.arrRef spec0 w) := by
  dsimp only [dat0]

theorem after0_0 (c : Dev nD) (t : Fin cfg0.N) : (dat0 (U := U) V O B c).after 0 t = iblk0 V c 0 t := by dsimp only [dat0]
theorem after0_1 (c : Dev nD) (t : Fin cfg0.N) : (dat0 (U := U) V O B c).after 1 t = iblk0 V c 1 t := by dsimp only [dat0]
theorem after0_2 (c : Dev nD) (t : Fin cfg0.N) : (dat0 (U := U) V O B c).after 2 t = iblk0 V c 2 t := by dsimp only [dat0]
theorem after0_3 (c : Dev nD) (t : Fin cfg0.N) : (dat0 (U := U) V O B c).after 3 t = iblk0 V c 3 t := by dsimp only [dat0]
theorem after0_4 (c : Dev nD) (t : Fin cfg0.N) : (dat0 (U := U) V O B c).after 4 t = iblk0 V c 4 t := by dsimp only [dat0]
theorem after0_5 (c : Dev nD) (t : Fin cfg0.N) : (dat0 (U := U) V O B c).after 5 t = iblk0 V c 5 t := by dsimp only [dat0]
theorem after0_6 (c : Dev nD) (t : Fin cfg0.N) : (dat0 (U := U) V O B c).after 6 t = iblk0 V c 6 t := by dsimp only [dat0]
theorem after0_7 (c : Dev nD) (t : Fin cfg0.N) : (dat0 (U := U) V O B c).after 7 t = iblk0 V c 7 t := by dsimp only [dat0]
theorem after0_8 (c : Dev nD) (t : Fin cfg0.N) : (dat0 (U := U) V O B c).after 8 t = iblk0 V c 8 t := by dsimp only [dat0]
theorem after0_9 (c : Dev nD) (t : Fin cfg0.N) : (dat0 (U := U) V O B c).after 9 t = accAt V c t.val t.isLt := by dsimp only [dat0]
theorem after0_10 (c : Dev nD) (t : Fin cfg0.N) : (dat0 (U := U) V O B c).after 10 t = miAt V c t := by dsimp only [dat0]

theorem q_eq0_0 (c : Dev nD) : (dat0 (U := U) V O B c).q 0 = Transfers.shareTok fullShare 4 0 := by dsimp only [dat0]
theorem q_eq0_1 (c : Dev nD) : (dat0 (U := U) V O B c).q 1 = Transfers.shareTok fullShare 4 1 := by dsimp only [dat0]
theorem q_eq0_2 (c : Dev nD) : (dat0 (U := U) V O B c).q 2 = Transfers.shareTok fullShare 4 2 := by dsimp only [dat0]
theorem q_eq0_3 (c : Dev nD) : (dat0 (U := U) V O B c).q 3 = Transfers.shareTok fullShare 4 3 := by dsimp only [dat0]
theorem q_eq0_4 (c : Dev nD) : (dat0 (U := U) V O B c).q 4 = fullShare := by dsimp only [dat0]
theorem q_eq0_5 (c : Dev nD) : (dat0 (U := U) V O B c).q 5 = Transfers.shareTok fullShare 4 0 := by dsimp only [dat0]
theorem q_eq0_6 (c : Dev nD) : (dat0 (U := U) V O B c).q 6 = Transfers.shareTok fullShare 4 1 := by dsimp only [dat0]
theorem q_eq0_7 (c : Dev nD) : (dat0 (U := U) V O B c).q 7 = Transfers.shareTok fullShare 4 2 := by dsimp only [dat0]
theorem q_eq0_8 (c : Dev nD) : (dat0 (U := U) V O B c).q 8 = Transfers.shareTok fullShare 4 3 := by dsimp only [dat0]
theorem q_eq0_9 (c : Dev nD) : (dat0 (U := U) V O B c).q 9 = fullShare := by dsimp only [dat0]
theorem q_eq0_10 (c : Dev nD) : (dat0 (U := U) V O B c).q 10 = fullShare := by dsimp only [dat0]

theorem before0_0 (c : Dev nD) (t : Fin cfg0.N) (d) : (dat0 (U := U) V O B c).before 0 t d = iblk0 V c 0 t :=
  ((dat0 (U := U) V O B c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 (U := U) V O B c).before 1 t d = iblk0 V c 1 t :=
  ((dat0 (U := U) V O B c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 (U := U) V O B c).before 2 t d = iblk0 V c 2 t :=
  ((dat0 (U := U) V O B c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 (U := U) V O B c).before 3 t d = iblk0 V c 3 t :=
  ((dat0 (U := U) V O B c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 (U := U) V O B c).before 4 t d = iblk0 V c 4 t :=
  ((dat0 (U := U) V O B c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 (U := U) V O B c).before 5 t d = iblk0 V c 5 t :=
  ((dat0 (U := U) V O B c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 (U := U) V O B c).before 6 t d = iblk0 V c 6 t :=
  ((dat0 (U := U) V O B c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 (U := U) V O B c).before 7 t d = iblk0 V c 7 t :=
  ((dat0 (U := U) V O B c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 (U := U) V O B c).before 8 t d = iblk0 V c 8 t :=
  ((dat0 (U := U) V O B c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

theorem accAt_A (c : Dev nD) (t : Fin cfg0.N) (h0 : t.val % 2 = 0) :
    accAt V c t.val t.isLt = accA (partAt V c t) := by
  obtain ⟨n, hn⟩ := t
  have hN : n < 2 := lt_of_lt_of_eq hn (show cfg0.N = 2 from N_0)
  have h0' : n % 2 = 0 := h0
  cases n with
  | zero => rfl
  | succ n => omega

theorem accAt_B (c : Dev nD) (t : Fin cfg0.N) (h0 : ¬t.val % 2 = 0) :
    accAt V c t.val t.isLt = accB (partAt V c t) (accAt V c (t.val - 1) (Nat.lt_of_le_of_lt (Nat.sub_le _ _) t.isLt)) := by
  obtain ⟨n, hn⟩ := t
  cases n with
  | zero => exact absurd (Nat.zero_mod _) h0
  | succ n => rfl

theorem before0_9_B (c : Dev nD) (t : Fin cfg0.N) (h0 : ¬t.val % 2 = 0) (d) :
    (dat0 (U := U) V O B c).before 9 t d = accAt V c (t.val - 1) (Nat.lt_of_le_of_lt (Nat.sub_le _ _) t.isLt) := by
  have hN : t.val < 2 := lt_of_lt_of_eq t.isLt (show cfg0.N = 2 from N_0)
  rw [Dat.before_out_kept _ 9 rfl t (by omega) (Bool.eq_false_iff.mpr fun h => by have := (flush0_9 _).mp h; dsimp only at this; omega)
    (fun _ => rfl) (fun _ _ => rfl)]
  dsimp only [dat0]

def bodyPre0 (c : Dev nD) (t : Fin cfg0.N) : sProp 𝕄 :=
  iprop((dat0 (U := U) V O B c).Φ t.castSucc ∗ (dat0 (U := U) V O B c).owesAt none t.castSucc
    ∗ (∃ d, owns (c : Thread nD τ) (st0_0 t) fullShare ((dat0 (U := U) V O B c).before 0 t d))
    ∗ (∃ d, owns (c : Thread nD τ) (st0_1 t) fullShare ((dat0 (U := U) V O B c).before 1 t d))
    ∗ (∃ d, owns (c : Thread nD τ) (st0_2 t) fullShare ((dat0 (U := U) V O B c).before 2 t d))
    ∗ (∃ d, owns (c : Thread nD τ) (st0_3 t) fullShare ((dat0 (U := U) V O B c).before 3 t d))
    ∗ (∃ d, owns (c : Thread nD τ) (st0_4 t) fullShare ((dat0 (U := U) V O B c).before 4 t d))
    ∗ (∃ d, owns (c : Thread nD τ) (st0_5 t) fullShare ((dat0 (U := U) V O B c).before 5 t d))
    ∗ (∃ d, owns (c : Thread nD τ) (st0_6 t) fullShare ((dat0 (U := U) V O B c).before 6 t d))
    ∗ (∃ d, owns (c : Thread nD τ) (st0_7 t) fullShare ((dat0 (U := U) V O B c).before 7 t d))
    ∗ (∃ d, owns (c : Thread nD τ) (st0_8 t) fullShare ((dat0 (U := U) V O B c).before 8 t d))
    ∗ (∃ d, owns (c : Thread nD τ) (st0_9 t) fullShare ((dat0 (U := U) V O B c).before 9 t d))
    ∗ (∃ d, owns (c : Thread nD τ) (st0_10 t) fullShare ((dat0 (U := U) V O B c).before 10 t d)))

def bodyPost0 (c : Dev nD) (t : Fin cfg0.N) : sProp 𝕄 :=
  iprop((dat0 (U := U) V O B c).Φ t.succ ∗ (dat0 (U := U) V O B c).owesAt none t.succ
    ∗ owns (c : Thread nD τ) (st0_0 t) fullShare ((dat0 (U := U) V O B c).after 0 t)
    ∗ owns (c : Thread nD τ) (st0_1 t) fullShare ((dat0 (U := U) V O B c).after 1 t)
    ∗ owns (c : Thread nD τ) (st0_2 t) fullShare ((dat0 (U := U) V O B c).after 2 t)
    ∗ owns (c : Thread nD τ) (st0_3 t) fullShare ((dat0 (U := U) V O B c).after 3 t)
    ∗ owns (c : Thread nD τ) (st0_4 t) fullShare ((dat0 (U := U) V O B c).after 4 t)
    ∗ owns (c : Thread nD τ) (st0_5 t) fullShare ((dat0 (U := U) V O B c).after 5 t)
    ∗ owns (c : Thread nD τ) (st0_6 t) fullShare ((dat0 (U := U) V O B c).after 6 t)
    ∗ owns (c : Thread nD τ) (st0_7 t) fullShare ((dat0 (U := U) V O B c).after 7 t)
    ∗ owns (c : Thread nD τ) (st0_8 t) fullShare ((dat0 (U := U) V O B c).after 8 t)
    ∗ owns (c : Thread nD τ) (st0_9 t) fullShare ((dat0 (U := U) V O B c).after 9 t)
    ∗ owns (c : Thread nD τ) (st0_10 t) fullShare ((dat0 (U := U) V O B c).after 10 t))

set_option maxHeartbeats 1600000 in

theorem sound_body0 (c : Dev nD) (t : Fin cfg0.N) :
    bodyPre0 (U := U) V O B c t ⊢ wp frame (wpE (defs₀ (F := F)) Variants.none c none) Set.univ (bodyAt0 t) (fun _ => bodyPost0 (U := U) V O B c t) := by
  unfold bodyPre0 bodyPost0 bodyAt0
  simp only [before0_0, before0_1, before0_2, before0_3, before0_4, before0_5, before0_6, before0_7, before0_8]
  rw [show (dat0 (U := U) V O B c).Φ t.succ = (dat0 (U := U) V O B c).Φ t.castSucc from rfl,
    show (dat0 (U := U) V O B c).owesAt none t.succ = (dat0 (U := U) V O B c).owesAt none t.castSucc from rfl,
    after0_0, after0_1, after0_2, after0_3, after0_4, after0_5, after0_6, after0_7, after0_8, after0_9, after0_10]
  have hN : t.val < 2 := lt_of_lt_of_eq t.isLt (show cfg0.N = 2 from N_0)
  have hacc : ∀ d9, accAt V c t.val t.isLt
      = accOf (grid0.coords t) (partAt V c t) ((dat0 (U := U) V O B c).before 9 t d9) := fun d9 => by
    unfold accOf
    by_cases h0 : t.val % 2 = 0
    · rw [if_pos ((hcond0 t).mpr h0), accAt_A V c t h0]
    · rw [if_neg (fun h => h0 ((hcond0 t).mp h)), accAt_B V c t h0, before0_9_B V O B c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [hacc d9]
  unfold partAt miAt
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _ _)
  iframe H0 H1 H2 H3 H4 H5 H6 H7 H8 H9
  isplitl [H10]; · iexists _; iexact H10
  iintro ⟨H0, H1, H2, H3, H4, H5, H6, H7, H8, H9, H10⟩
  iframe

theorem body_obligation0 (c : Dev nD) :
    BodyObligation (dat0 (F := F) (U := U) V O B c) (defs₀ (F := F)) Variants.none (none : SparseCore.Cfg.HIx 1) Set.univ := fun t => by
  rw [bigSep_W0, bigSep_W0]
  exact sound_body0 V O B c t

end Cert.KernelIdeal.R0

end
-- ==== Proof.R2Body.lean ====
import proofs.«217715_g15917148799621_cont_week2b_1297_29_alg».proof.Proof.Gen.KernelIdeal.Launch
import proofs.«217715_g15917148799621_cont_week2b_1297_29_alg».proof.Proof.Gen.KernelIdeal.Skeleton
import proofs.«217715_g15917148799621_cont_week2b_1297_29_alg».proof.Proof.Gen.KernelIdeal.Points
import Idealize.ShloMosaic.Lib.Pipeline.FrameBody
import Idealize.ShloMosaic.Lib.SparseCore.Cells
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable {U : Type} [URA U]

local notation "𝕄" => MT nD τ sig (SparseCore.Cfg.HIx 1) (Elt F) ℕ U ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rWord : Rect S1x1 := Rect.unit (s := S1x1) ![0, 0] S1x1.size inb_S1x1_S1x1_0_0

abbrev rRow0 : Rect S2x1x2048 := Rect.unit (s := S2x1x2048) ![0, 0, 1536] S1x1x512.size inb_S2x1x2048_S1x1x512_0_0_1536
abbrev rRow1 : Rect S2x1x2048 := Rect.unit (s := S2x1x2048) ![1, 0, 1536] S1x1x512.size inb_S2x1x2048_S1x1x512_1_0_1536

abbrev rTab : Rect S1x512x16 := Rect.unit (s := S1x512x16) ![0, 0, 0] S1x512x16.size inb_S1x512x16_S1x512x16_0_0_0

abbrev word0 : rWord.shape.Idx := Shape.Idx.first (numel1_S1x1.symm ▸ Nat.one_pos)

def out2_3 (x0 : Vec F S1x1 .f32) (x1 : Vec F S2x1x2048 .f32) (x2 : Vec F S1x512x16 .f32) : Vec F S1x1 .f32 :=
  View.canon [⟨rWord, fun _ => k2_pay1 (View.ld x2 rTab) (View.ld x1 rRow0) (View.ld x1 rRow1) (View.ld x0 rWord word0)⟩]

theorem cover2_3 (p0 : rWord.shape.Idx → Elt F .f32) (y : S1x1.Idx) :
    ∃ pc ∈ ([⟨rWord, p0⟩] : List (View.Piece (Elt F) S1x1 .f32)), y ∈ pc.1.set :=
  View.cover_of_tiled [⟨rWord, p0⟩] S1x1.size (by rfl) y

set_option maxHeartbeats 1000000 in

/-- Run once, the body stores the named pure term of what it loads. -/
theorem sound_kernel2 (c : Dev nD) (E : Set ℕ) (i : grid2.Coords)
    (arg1 : Memref sig .tc .smem S1x1 .f32) (harg1 : arg1.IsWhole)
    (arg2 : Memref sig .tc .vmem S2x1x2048 .f32) (harg2 : arg2.IsWhole)
    (arg3 : Memref sig .tc .vmem S1x512x16 .f32) (harg3 : arg3.IsWhole)
    (arg4 : Memref sig .tc .smem S1x1 .f32) (harg4 : arg4.IsWhole)
    (x0 : Vec F S1x1 .f32) (x1 : Vec F S2x1x2048 .f32) (x2 : Vec F S1x512x16 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E
          (cc2__tc_combine_kernel i arg1 harg1 arg2 harg2 arg3 harg3 arg4 harg4) K := by
  simp only [cc2__tc_combine_kernel_eq_skeleton]; unfold cc2__tc_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact View.read_writes_eq_canon _ _ _ (cover2_3 _)

def Φ2 (c : Dev nD) : sProp 𝕄 :=
  iprop(Pipeline.scopedRest (Ix := SparseCore.Cfg.HIx 1) (Name := ℕ) (U := U) (Lvl := ℕ) (Val := Elt F) spec2 c ∗ ∃ r, prngReg c r)

def dat2 (O : CellTallies nD τ sig (SparseCore.Cfg.HIx 1)) (B : Set (SemLoc sig × SparseCore.Cfg.HIx 1)) (c : Dev nD) :
    Dat τ (Elt F) (SparseCore.Cfg.HIx 1) ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Φ2 c
  q _ := fullShare
  owed _ := O
  recorded _ := B

variable (O : CellTallies nD τ sig (SparseCore.Cfg.HIx 1)) (B : Set (SemLoc sig × SparseCore.Cfg.HIx 1))

theorem A_eq2 (c : Dev nD) (w : Fin cfg2.W) : (dat2 (U := U) V O B c).A w = V c (Pipeline.arrRef spec2 w) := by
  dsimp only [dat2]

theorem after2_0 (c : Dev nD) (t : Fin cfg2.N) : (dat2 (U := U) V O B c).after 0 t = iblk2 V c 0 t := by dsimp only [dat2]
theorem after2_1 (c : Dev nD) (t : Fin cfg2.N) : (dat2 (U := U) V O B c).after 1 t = iblk2 V c 1 t := by dsimp only [dat2]
theorem after2_2 (c : Dev nD) (t : Fin cfg2.N) : (dat2 (U := U) V O B c).after 2 t = iblk2 V c 2 t := by dsimp only [dat2]
theorem after2_3 (c : Dev nD) (t : Fin cfg2.N) :
    (dat2 (U := U) V O B c).after 3 t = out2_3 (iblk2 V c 0 t) (iblk2 V c 1 t) (iblk2 V c 2 t) := by dsimp only [dat2]

theorem before2_0 (c : Dev nD) (t : Fin cfg2.N) (d) : (dat2 (U := U) V O B c).before 0 t d = iblk2 V c 0 t :=
  ((dat2 (U := U) V O B c).before_fetched 0 t (fetch2_0 t) d).trans
    (by unfold Dat.fetched Dat.blockOf iblk2; rw [A_eq2]; try rfl)
theorem before2_1 (c : Dev nD) (t : Fin cfg2.N) (d) : (dat2 (U := U) V O B c).before 1 t d = iblk2 V c 1 t :=
  ((dat2 (U := U) V O B c).before_fetched 1 t (fetch2_1 t) d).trans
    (by unfold Dat.fetched Dat.blockOf iblk2; rw [A_eq2]; try rfl)
theorem before2_2 (c : Dev nD) (t : Fin cfg2.N) (d) : (dat2 (U := U) V O B c).before 2 t d = iblk2 V c 2 t :=
  ((dat2 (U := U) V O B c).before_fetched 2 t (fetch2_2 t) d).trans
    (by unfold Dat.fetched Dat.blockOf iblk2; rw [A_eq2]; try rfl)

theorem before2_3 (c : Dev nD) (t : Fin cfg2.N) (d) : (dat2 (U := U) V O B c).before 3 t d = d :=
  (dat2 (U := U) V O B c).before_out_reset 3 rfl t (.inl (by rw [fin_N2 t]; rfl)) d

def bodyPre2 (c : Dev nD) (t : Fin cfg2.N) : sProp 𝕄 :=
  iprop((dat2 (U := U) V O B c).Φ t.castSucc ∗ (dat2 (U := U) V O B c).owesAt none t.castSucc
    ∗ (∃ d, owns (c : Thread nD τ) (st2_0 t) fullShare ((dat2 (U := U) V O B c).before 0 t d))
    ∗ (∃ d, owns (c : Thread nD τ) (st2_1 t) fullShare ((dat2 (U := U) V O B c).before 1 t d))
    ∗ (∃ d, owns (c : Thread nD τ) (st2_2 t) fullShare ((dat2 (U := U) V O B c).before 2 t d))
    ∗ (∃ d, owns (c : Thread nD τ) (st2_3 t) fullShare ((dat2 (U := U) V O B c).before 3 t d)))

def bodyPost2 (c : Dev nD) (t : Fin cfg2.N) : sProp 𝕄 :=
  iprop((dat2 (U := U) V O B c).Φ t.succ ∗ (dat2 (U := U) V O B c).owesAt none t.succ
    ∗ owns (c : Thread nD τ) (st2_0 t) fullShare ((dat2 (U := U) V O B c).after 0 t)
    ∗ owns (c : Thread nD τ) (st2_1 t) fullShare ((dat2 (U := U) V O B c).after 1 t)
    ∗ owns (c : Thread nD τ) (st2_2 t) fullShare ((dat2 (U := U) V O B c).after 2 t)
    ∗ owns (c : Thread nD τ) (st2_3 t) fullShare ((dat2 (U := U) V O B c).after 3 t))

theorem sound_body2 (c : Dev nD) (t : Fin cfg2.N) :
    bodyPre2 (U := U) V O B c t ⊢ wp frame (wpE (defs₀ (F := F)) Variants.none c none) Set.univ (bodyAt2 t) (fun _ => bodyPost2 (U := U) V O B c t) := by
  unfold bodyPre2 bodyPost2 bodyAt2
  simp only [before2_0, before2_1, before2_2, before2_3]
  rw [show (dat2 (U := U) V O B c).Φ t.succ = (dat2 (U := U) V O B c).Φ t.castSucc from rfl,
    show (dat2 (U := U) V O B c).owesAt none t.succ = (dat2 (U := U) V O B c).owesAt none t.castSucc from rfl,
    after2_0, after2_1, after2_2, after2_3]
  iintro ⟨HΦ, Ho, ⟨%d0, H0⟩, ⟨%d1, H1⟩, ⟨%d2, H2⟩, ⟨%d3, H3⟩⟩
  iapply (sound_kernel2 (U := U) c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  iframe

theorem body_obligation2 (c : Dev nD) :
    BodyObligation (dat2 (F := F) (U := U) V O B c) (defs₀ (F := F)) Variants.none none Set.univ := fun t => by
  rw [bigSep_W2, bigSep_W2]
  exact sound_body2 V O B c t

end Cert.KernelIdeal.R2

end
-- ==== Proof.R2Value.lean ====
import proofs.«217715_g15917148799621_cont_week2b_1297_29_alg».proof.Proof.R2Body
import Idealize.ShloMosaic.Lib.Pipeline.Value
import Idealize.ShloMosaic.Lib.ValueIdx

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable {U : Type} [URA U]

variable (V : (c : Dev nD) → (b : Ref sig .tc) → Buf (Elt F) ((c : Thread nD τ).loc b))
variable (O : CellTallies nD τ sig (SparseCore.Cfg.HIx 1)) (B : Set (SemLoc sig × SparseCore.Cfg.HIx 1))

theorem zero2 : (![0, 0] : Fin 2 → Nat) = fun _ => 0 := funext fun a => by fin_cases a <;> rfl
theorem zero3 : (![0, 0, 0] : Fin 3 → Nat) = fun _ => 0 := funext fun a => by fin_cases a <;> rfl

instance subsingleton_S1x1 : Subsingleton S1x1.Idx :=
  ⟨fun a b => funext fun d => match d with
    | ⟨0, _⟩ => Subsingleton.elim (α := Fin 1) _ _
    | ⟨1, _⟩ => Subsingleton.elim (α := Fin 1) _ _⟩

def combine (a0 : Vec F S1x1 .f32) (a1 : Vec F S2x1x2048 .f32) (a2 : Vec F S1x512x16 .f32) : Vec F S1x1 .f32 :=
  fun _ => k2_pay1 a2 (View.ld a1 rRow0) (View.ld a1 rRow1) (a0 (ValueIdx.ix2 0 0))

theorem out2_3_eq (x0 : Vec F S1x1 .f32) (x1 : Vec F S2x1x2048 .f32) (x2 : Vec F S1x512x16 .f32) :
    out2_3 x0 x1 x2 = combine x0 x1 x2 := by
  unfold out2_3 combine
  rw [View.canon_unit_zero zero2]
  simp only [View.ld_unit_zero (S := S1x512x16) zero3]
  funext _
  exact congrArg (k2_pay1 x2 (View.ld x1 rRow0) (View.ld x1 rRow1)) (congrArg x0 (Subsingleton.elim _ _))

theorem index_zero2 : ∀ t : Fin cfg2.N,
    win2_0.index t (0 : Fin 2) = 0 ∧ win2_0.index t (1 : Fin 2) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0 :=
  (by decide +kernel : ∀ t : Fin grid2.N, _)

theorem iblk2_0 (c : Dev nD) (t : Fin cfg2.N) : iblk2 V c 0 t = (V c main_v1_0 : Vec F S1x1 .f32) := by
  obtain ⟨e0, e1, -⟩ := index_zero2 t
  funext j
  show V c main_v1_0 (((cfg2.win 0).blk t).view.emb j) = V c main_v1_0 j
  refine congrArg (V c main_v1_0) ?_
  funext a; apply Fin.ext
  match a with
  | ⟨0, _⟩ => show win2_0.index t (0 : Fin 2) * 1 + 1 * (j 0).val = (j 0).val; omega
  | ⟨1, _⟩ => show win2_0.index t (1 : Fin 2) * 1 + 1 * (j 1).val = (j 1).val; omega
theorem iblk2_1 (c : Dev nD) (t : Fin cfg2.N) : iblk2 V c 1 t = (V c main_v1_1 : Vec F S2x1x2048 .f32) := by
  obtain ⟨-, -, e0, e1, e2, -⟩ := index_zero2 t
  funext j
  show V c main_v1_1 (((cfg2.win 1).blk t).view.emb j) = V c main_v1_1 j
  refine congrArg (V c main_v1_1) ?_
  funext a; apply Fin.ext
  match a with
  | ⟨0, _⟩ => show win2_1.index t (0 : Fin 3) * 2 + 1 * (j 0).val = (j 0).val; omega
  | ⟨1, _⟩ => show win2_1.index t (1 : Fin 3) * 1 + 1 * (j 1).val = (j 1).val; omega
  | ⟨2, _⟩ => show win2_1.index t (2 : Fin 3) * 2048 + 1 * (j 2).val = (j 2).val; omega
theorem iblk2_2 (c : Dev nD) (t : Fin cfg2.N) : iblk2 V c 2 t = (V c main_v3 : Vec F S1x512x16 .f32) := by
  obtain ⟨-, -, -, -, -, e0, e1, e2, -⟩ := index_zero2 t
  funext j
  show V c main_v3 (((cfg2.win 2).blk t).view.emb j) = V c main_v3 j
  refine congrArg (V c main_v3) ?_
  funext a; apply Fin.ext
  match a with
  | ⟨0, _⟩ => show win2_2.index t (0 : Fin 3) * 1 + 1 * (j 0).val = (j 0).val; omega
  | ⟨1, _⟩ => show win2_2.index t (1 : Fin 3) * 512 + 1 * (j 1).val = (j 1).val; omega
  | ⟨2, _⟩ => show win2_2.index t (2 : Fin 3) * 16 + 1 * (j 2).val = (j 2).val; omega

theorem flushed2_3_eq (c : Dev nD) (t : Fin cfg2.N) :
    (dat2 (U := U) V O B c).flushed 3 t
      = ((cfg2.win 3).blk t).view.read (Elt F) (combine (V c main_v1_0) (V c main_v1_1) (V c main_v3)) := by
  show (cfg2.win 3).cut (grid2.coords t) ((dat2 (U := U) V O B c).after 3 t) = _
  rw [after2_3, out2_3_eq, iblk2_0, iblk2_1, iblk2_2]
  rfl

theorem mem_blk2_3 (t : Fin cfg2.N) (i : S1x1.Idx) :
    i ∈ ((cfg2.win 3).blk t).view.set ↔ ∀ a : Fin 2, win2_3.index t a * S1x1.size a ≤ (i a).val ∧ (i a).val < win2_3.index t a * S1x1.size a + S1x1.size a := by
  show i ∈ ((View.whole main_v4).slice (win2_3.rect t)).set ↔ _
  rw [View.set_slice_whole, Rect.mem_set_unit]
  exact Iff.rfl

theorem cover2_3_arr (i : S1x1.Idx) : ∃ t : Fin cfg2.N, (cfg2.win 3).flush t = true ∧ i ∈ ((cfg2.win 3).blk t).view.set := by
  refine ⟨t2_0, flush2_3 _, ?_⟩
  obtain ⟨-, -, -, -, -, -, -, -, e0, e1⟩ := index_zero2 t2_0
  rw [mem_blk2_3]
  intro a
  match a with
  | ⟨0, _⟩ => show win2_3.index t2_0 (0 : Fin 2) * 1 ≤ (i 0).val ∧ (i 0).val < win2_3.index t2_0 (0 : Fin 2) * 1 + 1; have hi : (i 0).val < 1 := (i 0).isLt; omega
  | ⟨1, _⟩ => show win2_3.index t2_0 (1 : Fin 2) * 1 ≤ (i 1).val ∧ (i 1).val < win2_3.index t2_0 (1 : Fin 2) * 1 + 1; have hi : (i 1).val < 1 := (i 1).isLt; omega

/-- The one point's block is the whole result. -/
theorem arrAt2_3 (c : Dev nD) :
    (dat2 (U := U) V O B c).arrAt 3 cfg2.N = combine (V c main_v1_0) (V c main_v1_1) (V c main_v3) :=
  (dat2 (U := U) V O B c).arrAt_eq_of_cover 3 _ (fun t _ => flushed2_3_eq V O B c t) cover2_3_arr

theorem arrAt2_0 (c : Dev nD) : (dat2 (U := U) V O B c).arrAt 0 cfg2.N = V c main_v1_0 :=
  ((dat2 (U := U) V O B c).arrAt_in 0 rfl _).trans (A_eq2 V O B c 0)
theorem arrAt2_1 (c : Dev nD) : (dat2 (U := U) V O B c).arrAt 1 cfg2.N = V c main_v1_1 :=
  ((dat2 (U := U) V O B c).arrAt_in 1 rfl _).trans (A_eq2 V O B c 1)
theorem arrAt2_2 (c : Dev nD) : (dat2 (U := U) V O B c).arrAt 2 cfg2.N = V c main_v3 :=
  ((dat2 (U := U) V O B c).arrAt_in 2 rfl _).trans (A_eq2 V O B c 2)

end Cert.KernelIdeal.R2

end
-- ==== Proof.Regs.lean ====
import proofs.«217715_g15917148799621_cont_week2b_1297_29_alg».proof.Proof.Setup
import proofs.«217715_g15917148799621_cont_week2b_1297_29_alg».proof.Proof.R0Body
import proofs.«217715_g15917148799621_cont_week2b_1297_29_alg».proof.Proof.R2Body
import proofs.«217715_g15917148799621_cont_week2b_1297_29_alg».proof.Proof.R2Value
import Idealize.ShloMosaic.Lib.Pipeline.RegionsLoop
import Idealize.ShloMosaic.Lib.Pipeline.FrameSuffix

noncomputable section

namespace Cert.KernelIdeal.Regs

open Cert.KernelIdeal Cert.KernelIdeal.Gen Cert.KernelIdeal.Setup

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sub_split held_congr wp_hlo_within)

variable {F : FTy → Type} [FloatOps F] [Named F]

local notation "𝕄" => MT nD τ sig (HIx 1) (Elt F) ℕ UU ℕ

variable (m : (ℓ : Loc nD τ sig) → Buf (Elt F) ℓ)
variable (ov : (d : Dev nD) → Buf (Elt F) (oLoc d))

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

def Bn (d : Dev nD) (n : ℕ) : Set (SemLoc sig × HIx 1) := {p | (K (F := F)).lev (T d, p.1) p.2 ≤ 8 * n}

abbrev owesN (d : Dev nD) (n : ℕ) : sProp 𝕄 := Pipeline.owesWithin d ((K (F := F)).Otc d n) (Bn (F := F) d n)

abbrev x' : DevRef τ sig := Proc.devRef .tc (main_arg0 : Ref sig .tc)
abbrev l' : DevRef τ sig := Proc.devRef .tc (main_arg1 : Ref sig .tc)
abbrev c' : DevRef τ sig := Proc.devRef .tc (main_arg2 : Ref sig .tc)
abbrev v0' : DevRef τ sig := Proc.devRef .tc (main_v0 : Ref sig .tc)
abbrev p' : DevRef τ sig := Proc.devRef .tc (main_v1_0 : Ref sig .tc)
abbrev mi' : DevRef τ sig := Proc.devRef .tc (main_v1_1 : Ref sig .tc)
abbrev o' : DevRef τ sig := Proc.devRef .tc (main_v2 : Ref sig .tc)
abbrev o3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)

abbrev opR0 : HloOp τ sig (Elt F) := StableHlo.reshape main_arg1 main_v0 rfl Facts₀.shapeCasts_S16384_S8x1x2048
abbrev opR1 : HloOp τ sig (Elt F) := StableHlo.reshape main_v2 main_v3 rfl Facts₀.shapeCasts_S512x16_S1x512x16
abbrev opR2 : HloOp τ sig (Elt F) := StableHlo.reshape main_v4 main_v5 rfl Facts₀.shapeCasts_S1x1_S_

abbrev W0 (d : Dev nD) : Valuation τ sig (Elt F) := fun b => m (d, b)

def W1 (d : Dev nD) : Valuation τ sig (Elt F) := (opR0 (F := F)).result (W0 m d)
abbrev V1 : (d : Dev nD) → (b : Ref sig .tc) → Buf (Elt F) ((d : Thread nD τ).loc b) := fun d b => W1 m d b

abbrev d0 (d : Dev nD) : Pipeline.Dat τ (Elt F) (HIx 1) ℕ UU ℕ cfg0 d :=
  R0.dat0 (U := UU) (V1 m) ((K (F := F)).Otc d 0) (Bn (F := F) d 0) d

def W2 (d : Dev nD) : Valuation τ sig (Elt F) :=
  Function.update (Function.update (W1 m d) p' ((d0 m d).arrAt 9 cfg0.N)) mi' ((d0 m d).arrAt 10 cfg0.N)

def W3 (d : Dev nD) : Valuation τ sig (Elt F) := Function.update (W2 m d) o' (ov d)

def W4 (d : Dev nD) : Valuation τ sig (Elt F) := (opR1 (F := F)).result (W3 m ov d)
abbrev V4 : (d : Dev nD) → (b : Ref sig .tc) → Buf (Elt F) ((d : Thread nD τ).loc b) := fun d b => W4 m ov d b

abbrev d2 (d : Dev nD) : Pipeline.Dat τ (Elt F) (HIx 1) ℕ UU ℕ cfg2 d :=
  R2.dat2 (U := UU) (V4 m ov) ((K (F := F)).Otc d 1) (Bn (F := F) d 1) d

def W5 (d : Dev nD) : Valuation τ sig (Elt F) :=
  Pipeline.withArrays spec2 d (W4 m ov d) fun w => (d2 m ov d).arrAt w cfg2.N
abbrev V5 : (d : Dev nD) → (b : Ref sig .tc) → Buf (Elt F) ((d : Thread nD τ).loc b) := fun d b => W5 m ov d b

def W6 (d : Dev nD) : Valuation τ sig (Elt F) := (opR2 (F := F)).result (W5 m ov d)

theorem W5_arr (d : Dev nD) (w : Fin cfg2.W) :
    W5 m ov d (Proc.devRef .tc (Pipeline.arrRef spec2 w)) = (d2 m ov d).arrAt w cfg2.N := by
  unfold W5; exact Pipeline.withArrays_arr spec2 launch2.win.arr_inj d _ _ w
theorem W5_of_ne (d : Dev nD) (b : Ref sig .tc) (hb : ∀ w, Pipeline.arrRef spec2 w ≠ b) :
    W5 m ov d (Proc.devRef .tc b) = W4 m ov d (Proc.devRef .tc b) := by
  unfold W5; exact Pipeline.withArrays_of_ne spec2 d _ _ b hb
theorem hF2 (d : Dev nD) (w : Fin cfg2.W) : (d2 m ov d).arrAt w cfg2.N = V5 m ov d (Pipeline.arrRef spec2 w) :=
  (W5_arr m ov d w).symm
theorem hrest2 (d : Dev nD) : ∀ b, b ∉ Finset.univ.image (Pipeline.arrRef spec2) → V5 m ov d b = V4 m ov d b :=
  fun b hb => W5_of_ne m ov d b fun w e => hb (Finset.mem_image.mpr ⟨w, Finset.mem_univ _, e⟩)

abbrev adm : (p : Fin 2) → (pcfgs (F := F) p).Adm := fun p => (cfgs p).toPCfg_adm

def pdats : (p : Fin 2) → (d : Dev nD) → Pipeline.Dat τ (Elt F) (HIx 1) ℕ UU ℕ (Pipeline.pin (pcfgs (F := F)) adm p) d
  | ⟨0, _⟩ => fun d => d0 m d
  | ⟨1, _⟩ => fun d => d2 m ov d

abbrev LK : GSem nD τ sig → Finset (HIx 1) := (K (F := F)).L
abbrev lvK : GSem nD τ sig → HIx 1 → ℕ := (K (F := F)).lev

abbrev Rn (d : Dev nD) (n : ℕ) : sProp 𝕄 := iprop((∃ r, prngReg d r) ∗ owesN (F := F) d n)

theorem waitPairs_sub {cfg : Pipeline.Cfg sig Λ₀} (d : Dev nD) (n : ℕ) : cfg.waitPairs (none : HIx 1) ⊆ Bn (F := F) d n := by
  rintro _ ⟨w, s, rfl⟩
  show (K (F := F)).lev _ none ≤ _
  rw [SparseCore.Cfg.lev_none]; exact Nat.zero_le _

theorem hwaitsN (p : Fin 2) (d : Dev nD) (n : ℕ) (h : ∀ t, (pdats m ov p d).owed t = (K (F := F)).Otc d n) :
    (levAts (LK (F := F)) (lvK (F := F)) : sProp 𝕄) ⊢ Pipeline.cellsWaits (Pipeline.pin (pcfgs (F := F)) adm) (pdats m ov) none p d :=
  Pipeline.cellsWaits_intro (Pipeline.pin (pcfgs (F := F)) adm) (pdats m ov) none p d fun w s t => by
    rw [h t]; exact (K (F := F)).mayWait_none _ (Otc_none (F := F) d n)

abbrev drop0 (d : Dev nD) : sProp 𝕄 :=
  iprop((((d, x') : Loc nD τ sig) ↦{shareDrop fullShare 4} W1 m d x') ∗ (((d, v0') : Loc nD τ sig) ↦{shareDrop fullShare 4} W1 m d v0'))

theorem bigSep_F4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem arrays0_eq (d : Dev nD) (G : (w : Fin cfg0.W) → Buf (Elt F) ((cfg0.win w).arr.view.loc (d.tc : Thread nD τ))) :
    ((d0 m d).arrays G : sProp 𝕄) = bigSep Finset.univ fun w : Fin cfg0.W =>
      (((d.tc : Thread nD τ).loc (Pipeline.arrRef spec0 w)) ↦{(d0 m d).share w} G w : sProp 𝕄) := by
  unfold Pipeline.Dat.arrays
  exact bigSep_congr fun w _ => by rw [(arr_whole0 w).set_eq_univ]

theorem share0_in (d : Dev nD) (w : Fin cfg0.W) (h : (cfg0.win w).isOut = false) : (d0 m d).share w = (d0 m d).q w := by
  unfold Pipeline.Dat.share; rw [h]; rfl
theorem share0_out (d : Dev nD) (w : Fin cfg0.W) (h : (cfg0.win w).isOut = true) : (d0 m d).share w = fullShare := by
  unfold Pipeline.Dat.share; rw [h]; rfl

theorem W2_p (d : Dev nD) : W2 m d p' = (d0 m d).arrAt 9 cfg0.N := by
  unfold W2; rw [Function.update_of_ne (show p' ≠ mi' by decide), Function.update_self]
theorem W2_mi (d : Dev nD) : W2 m d mi' = (d0 m d).arrAt 10 cfg0.N := by
  unfold W2; exact Function.update_self _ _ _
theorem W2_in (d : Dev nD) (b : DevRef τ sig) (h9 : b ≠ p') (h10 : b ≠ mi') : W2 m d b = W1 m d b := by
  unfold W2; rw [Function.update_of_ne h10, Function.update_of_ne h9]

theorem image_arr0 : Finset.univ.image (Pipeline.arrRef spec0)
    = ({main_arg0, main_arg2, main_v0, main_v1_0, main_v1_1} : Finset (Ref sig .tc)) := by decide

set_option maxHeartbeats 2000000 in

theorem split0 (d : Dev nD) :
    (Pipeline.arrBufs spec0 d (V1 m d) : sProp 𝕄) ⊢ iprop((d0 m d).arrays ((d0 m d).arrAt · 0) ∗ drop0 m d) := by
  rw [arrays0_eq, bigSep_W0,
    share0_in m d 0 rfl, share0_in m d 1 rfl, share0_in m d 2 rfl, share0_in m d 3 rfl, share0_in m d 4 rfl,
    share0_in m d 5 rfl, share0_in m d 6 rfl, share0_in m d 7 rfl, share0_in m d 8 rfl, share0_out m d 9 rfl, share0_out m d 10 rfl,
    R0.q_eq0_0, R0.q_eq0_1, R0.q_eq0_2, R0.q_eq0_3, R0.q_eq0_4, R0.q_eq0_5, R0.q_eq0_6, R0.q_eq0_7, R0.q_eq0_8]
  unfold Pipeline.arrBufs
  rw [image_arr0, SparseCore.bigSep_insert' (by decide), SparseCore.bigSep_insert' (by decide), SparseCore.bigSep_insert' (by decide),
    SparseCore.bigSep_insert' (by decide), bigSep_singleton]
  iintro ⟨Hx, Hc, Hv, Hp, Hmi⟩
  ihave Hx := (pointsTo_toks_split fullShare 4) $$ Hx
  icases Hx with ⟨Hxd, Hxt⟩
  ihave Hxt := (Entails.of_eq (bigSep_F4 _)) $$ Hxt
  icases Hxt with ⟨Hx0, Hx1, Hx2, Hx3⟩
  ihave Hv := (pointsTo_toks_split fullShare 4) $$ Hv
  icases Hv with ⟨Hvd, Hvt⟩
  ihave Hvt := (Entails.of_eq (bigSep_F4 _)) $$ Hvt
  icases Hvt with ⟨Hv0, Hv1, Hv2, Hv3⟩
  isplitr [Hxd Hvd]
  · isplitl [Hx0]; · iexact Hx0
    isplitl [Hx1]; · iexact Hx1
    isplitl [Hx2]; · iexact Hx2
    isplitl [Hx3]; · iexact Hx3
    isplitl [Hc]; · iexact Hc
    isplitl [Hv0]; · iexact Hv0
    isplitl [Hv1]; · iexact Hv1
    isplitl [Hv2]; · iexact Hv2
    isplitl [Hv3]; · iexact Hv3
    isplitl [Hp]; · iexact Hp
    iexact Hmi
  · isplitl [Hxd]; · iexact Hxd
    iexact Hvd

set_option maxHeartbeats 2000000 in

theorem join0 (d : Dev nD) :
    iprop((d0 m d).arrays ((d0 m d).arrAt · cfg0.N) ∗ drop0 m d)
      ⊢ (Pipeline.arrBufs spec0 d (fun b => W2 m d b) : sProp 𝕄) := by
  rw [arrays0_eq, bigSep_W0,
    share0_in m d 0 rfl, share0_in m d 1 rfl, share0_in m d 2 rfl, share0_in m d 3 rfl, share0_in m d 4 rfl,
    share0_in m d 5 rfl, share0_in m d 6 rfl, share0_in m d 7 rfl, share0_in m d 8 rfl, share0_out m d 9 rfl, share0_out m d 10 rfl,
    R0.q_eq0_0, R0.q_eq0_1, R0.q_eq0_2, R0.q_eq0_3, R0.q_eq0_4, R0.q_eq0_5, R0.q_eq0_6, R0.q_eq0_7, R0.q_eq0_8,
    (d0 m d).arrAt_in 0 rfl cfg0.N, (d0 m d).arrAt_in 1 rfl cfg0.N, (d0 m d).arrAt_in 2 rfl cfg0.N, (d0 m d).arrAt_in 3 rfl cfg0.N,
    (d0 m d).arrAt_in 4 rfl cfg0.N, (d0 m d).arrAt_in 5 rfl cfg0.N, (d0 m d).arrAt_in 6 rfl cfg0.N, (d0 m d).arrAt_in 7 rfl cfg0.N,
    (d0 m d).arrAt_in 8 rfl cfg0.N]
  unfold Pipeline.arrBufs
  rw [image_arr0, SparseCore.bigSep_insert' (by decide), SparseCore.bigSep_insert' (by decide), SparseCore.bigSep_insert' (by decide),
    SparseCore.bigSep_insert' (by decide), bigSep_singleton]
  dsimp only
  rw [W2_in m d x' (by decide) (by decide), W2_in m d c' (by decide) (by decide), W2_in m d v0' (by decide) (by decide), W2_p, W2_mi]
  iintro ⟨⟨Hx0, Hx1, Hx2, Hx3, Hc, Hv0, Hv1, Hv2, Hv3, Hp, Hmi⟩, Hxd, Hvd⟩
  isplitl [Hx0 Hx1 Hx2 Hx3 Hxd]
  · iapply (pointsTo_toks_join fullShare 4)
    isplitl [Hxd]; · iexact Hxd
    rw [bigSep_F4]
    isplitl [Hx0]; · iexact Hx0
    isplitl [Hx1]; · iexact Hx1
    isplitl [Hx2]; · iexact Hx2
    iexact Hx3
  isplitl [Hc]; · iexact Hc
  isplitl [Hv0 Hv1 Hv2 Hv3 Hvd]
  · iapply (pointsTo_toks_join fullShare 4)
    isplitl [Hvd]; · iexact Hvd
    rw [bigSep_F4]
    isplitl [Hv0]; · iexact Hv0
    isplitl [Hv1]; · iexact Hv1
    isplitl [Hv2]; · iexact Hv2
    iexact Hv3
  isplitl [Hp]; · iexact Hp
  iexact Hmi

theorem owesAt_of_owesN {cfg : Pipeline.Cfg sig Λ₀} {d : Dev nD} (dat : Pipeline.Dat τ (Elt F) (HIx 1) ℕ UU ℕ cfg d) (n : ℕ)
    (t : Fin (cfg.N + 1)) (ho : dat.owed t = (K (F := F)).Otc d n) (hr : dat.recorded t = Bn (F := F) d n) :
    owesN (F := F) d n ⊢ (dat.owesAt none t : sProp 𝕄) := by
  unfold Pipeline.Dat.owesAt Pipeline.Dat.bound
  rw [ho, hr]
  exact Pipeline.owesWithin_mono d _ Set.subset_union_left

theorem owesN_of_owesAt {cfg : Pipeline.Cfg sig Λ₀} {d : Dev nD} (dat : Pipeline.Dat τ (Elt F) (HIx 1) ℕ UU ℕ cfg d) (n : ℕ)
    (t : Fin (cfg.N + 1)) (ho : dat.owed t = (K (F := F)).Otc d n) (hr : dat.recorded t = Bn (F := F) d n) :
    (dat.owesAt none t : sProp 𝕄) ⊢ owesN (F := F) d n := by
  unfold Pipeline.Dat.owesAt Pipeline.Dat.bound
  rw [ho, hr]
  exact Pipeline.owesWithin_mono d _ (Set.union_subset (Set.Subset.refl _) (waitPairs_sub (F := F) d n))

set_option backward.isDefEq.respectTransparency.types false in

def reg2 : Pipeline.RegionSeg (pcfgs (F := F)) adm (pdats m ov) (none : HIx 1) defs₀ 𝒱₀ (LK (F := F)) (lvK (F := F)) 1 where
  win := launch2.win.to₀
  block_pos := launch2.block_pos
  stage_whole := launch2.stage_whole
  K := PEmpty
  osem k := k.elim
  ho := Pipeline.OwnSemFacts.none _
  hbody d := (R2.body_obligation2 (U := UU) (V4 m ov) ((Setup.K (F := F)).Otc d 1) (Bn (F := F) d 1) d).loose
  hwaits d := hwaitsN m ov 1 d 1 fun _ => rfl
  pre d := iprop(held (d : Thread nD τ) (Pipeline.ucRefs τ sig) (W4 m ov d) ∗ Rn (F := F) d 1)
  post d := iprop(held (d : Thread nD τ) (Pipeline.ucRefs τ sig) (W5 m ov d) ∗ Rn (F := F) d 1)
  X d := iprop(∃ r, prngReg d r)
  Y d := iprop(∃ r, prngReg d r)
  Z d := Pipeline.unscopedRest (Ix := HIx 1) (Name := ℕ) (U := UU) (Lvl := ℕ) spec2 d (V4 m ov d)
  hentry d := by
    rw [Pipeline.ownSems0_none]
    have hsplit := Pipeline.arrays_of_unscopedBufs (p := 1) (pcfgs (F := F)) adm (pdats m ov) launch2.win launch2.arr_whole d
      ((pdats m ov 1 d).share_full fun _ => rfl) (V4 m ov d) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesN (F := F) (pdats m ov 1 d) 1 0 rfl rfl); iexact HO
    isplitl [Hp]; · iexact Hp
    iexact Hrest
  hin d := by
    rw [show (pdats m ov 1 d).Φ 0 = R2.Φ2 (U := UU) d from rfl]; unfold R2.Φ2
    iintro ⟨Hp, -, Hr⟩
    isplitl [Hr]; · iexact Hr
    iexact Hp
  hout d := by
    rw [Pipeline.ownSems0_none, show (pdats m ov 1 d).Φ (Fin.last _) = R2.Φ2 (U := UU) d from rfl]; unfold R2.Φ2
    iintro ⟨Hr, Hp⟩
    isplitl [Hp]; · iexact Hp
    isplitr; · iempintro
    iexact Hr
  hexit d := by
    have hjoin := Pipeline.unscopedBufs_of_arrays (p := 1) (pcfgs (F := F)) adm (Ix := HIx 1) (Name := ℕ) (U := UU) (Lvl := ℕ)
      launch2.win launch2.arr_whole d (pdats m ov) ((pdats m ov 1 d).share_full fun _ => rfl)
      (V4 m ov d) (V5 m ov d) ((pdats m ov 1 d).arrAt · cfg2.N) (hF2 m ov d) (hrest2 m ov d)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesN_of_owesAt (F := F) (pdats m ov 1 d) 1 (Fin.last _) rfl rfl); iexact HO

theorem W2_rest (d : Dev nD) (b : Ref sig .tc) (hb : b ∉ Finset.univ.image (Pipeline.arrRef spec0)) :
    W2 m d (Proc.devRef .tc b) = W1 m d (Proc.devRef .tc b) := by
  have h9 : (Proc.devRef .tc b : DevRef τ sig) ≠ p' := fun e =>
    hb (Finset.mem_image.mpr ⟨9, Finset.mem_univ _, (Proc.devRef_injective (τ := τ) (sig := sig) .tc e).symm⟩)
  have h10 : (Proc.devRef .tc b : DevRef τ sig) ≠ mi' := fun e =>
    hb (Finset.mem_image.mpr ⟨10, Finset.mem_univ _, (Proc.devRef_injective (τ := τ) (sig := sig) .tc e).symm⟩)
  unfold W2
  rw [Function.update_of_ne h10, Function.update_of_ne h9]

set_option backward.isDefEq.respectTransparency.types false in

/-- The first call as one segment of the main thread: the arrays it reads and writes go in and come back at the named contents. -/
def reg0 : Pipeline.RegionSeg (pcfgs (F := F)) adm (pdats m ov) (none : HIx 1) defs₀ 𝒱₀ (LK (F := F)) (lvK (F := F)) 0 where
  win := winFacts₀0
  block_pos := block_pos0
  stage_whole := stage_whole0
  K := PEmpty
  osem k := k.elim
  ho := Pipeline.OwnSemFacts.none _
  hbody d := (R0.body_obligation0 (U := UU) (V1 m) ((Setup.K (F := F)).Otc d 0) (Bn (F := F) d 0) d).loose
  hwaits d := hwaitsN m ov 0 d 0 fun _ => rfl
  pre d := iprop(held (d : Thread nD τ) (Pipeline.ucRefs τ sig) (W1 m d) ∗ Rn (F := F) d 0)
  post d := iprop(held (d : Thread nD τ) (Pipeline.ucRefs τ sig) (W2 m d) ∗ Rn (F := F) d 0)
  X d := iprop(∃ r, prngReg d r)
  Y d := iprop(∃ r, prngReg d r)
  Z d := iprop(Pipeline.unscopedRest (Ix := HIx 1) (Name := ℕ) (U := UU) (Lvl := ℕ) spec0 d (V1 m d) ∗ drop0 m d)
  hentry d := by
    rw [Pipeline.ownSems0_none]
    have hs := Pipeline.unscopedBufs_split₀ (Ix := HIx 1) (Name := ℕ) (U := UU) (Lvl := ℕ) (Pipeline.pin (pcfgs (F := F)) adm) 0
      winFacts₀0.arr_unscoped d (V1 m d)
    rw [Pipeline.unscopedBufs_held] at hs
    iintro ⟨⟨Hub, Hp, HO⟩, -, -⟩
    ihave H := (Entails.of_eq hs) $$ Hub
    icases H with ⟨Hb, Hrest⟩
    ihave Ha := (split0 m d) $$ Hb
    icases Ha with ⟨Ha, Hd⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesN (F := F) (pdats m ov 0 d) 0 0 rfl rfl); iexact HO
    isplitl [Hp]; · iexact Hp
    isplitl [Hrest]; · iexact Hrest
    iexact Hd
  hin d := by
    rw [show (pdats m ov 0 d).Φ 0 = R0.Φ0 (U := UU) d from rfl]; unfold R0.Φ0
    iintro ⟨Hp, -, Hr⟩
    isplitl [Hr]; · iexact Hr
    iexact Hp
  hout d := by
    rw [Pipeline.ownSems0_none, show (pdats m ov 0 d).Φ (Fin.last _) = R0.Φ0 (U := UU) d from rfl]; unfold R0.Φ0
    iintro ⟨Hr, Hp⟩
    isplitl [Hp]; · iexact Hp
    isplitr; · iempintro
    iexact Hr
  hexit d := by
    have hs := Pipeline.unscopedBufs_split₀ (Ix := HIx 1) (Name := ℕ) (U := UU) (Lvl := ℕ) (Pipeline.pin (pcfgs (F := F)) adm) 0
      winFacts₀0.arr_unscoped d (fun b => W2 m d b)
    rw [Pipeline.unscopedBufs_held] at hs
    have hrest : (Pipeline.unscopedRest (Ix := HIx 1) (Name := ℕ) (U := UU) (Lvl := ℕ) spec0 d (fun b => W2 m d b) : sProp 𝕄)
        = Pipeline.unscopedRest spec0 d (V1 m d) := by
      unfold Pipeline.unscopedRest
      exact bigSep_congr fun b hb => by dsimp only; rw [W2_rest m d b (Finset.mem_sdiff.mp hb).2]
    iintro ⟨Ha, HO, HY, Hrest, Hd⟩
    ihave Hb := (join0 m d) $$ [Ha Hd]
    · isplitl [Ha]; · iexact Ha
      iexact Hd
    imodintro
    isplitl [Hb Hrest]
    · rw [hs]
      isplitl [Hb]; · iexact Hb
      iapply (Entails.of_eq hrest.symm); iexact Hrest
    isplitl [HY]; · iexact HY
    iapply (owesN_of_owesAt (F := F) (pdats m ov 0 d) 0 (Fin.last _) rfl rfl); iexact HO

end Cert.KernelIdeal.Regs

end
-- ==== Proof.Elem.lean ====
import proofs.«217715_g15917148799621_cont_week2b_1297_29_alg».proof.Proof.Setup
import Idealize.ShloMosaic.Lib.Pipeline.Sound

noncomputable section

namespace Cert.KernelIdeal.Elem

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

abbrev pa : Dev nD → (p : Fin 2) → (pcfgs (F := F) p).Adm := fun _ p => (cfgs p).toPCfg_adm

theorem phinj : Function.Injective (Pipeline.PerCore.cellOf (nD := nD) (τ := τ) (Pipeline.pinD (pcfgs (F := F)) (pa (F := F)))) :=
  cellOf_inj

local notation "cfgP" => Pipeline.pinD (pcfgs (F := F)) (pa (F := F))

abbrev G (d : Dev nD) : sProp 𝕄 :=
  iprop((Pipeline.PerCore.cellsGhost (cfgP) EP 0 d ∗ Pipeline.PerCore.toksInit (cfgP) EP 0 d)
    ∗ (Pipeline.PerCore.cellsGhost (cfgP) EP 1 d ∗ Pipeline.PerCore.toksInit (cfgP) EP 1 d))

theorem G_eq_ghostOn (d : Dev nD) :
    (G d : sProp 𝕄) = Pipeline.PerCore.ghostOn (pcfgs (F := F)) (pa (F := F)) EP Finset.univ d := by
  unfold Pipeline.PerCore.ghostOn
  rw [bigSep_univ_two]

variable (m : (ℓ : Loc nD τ sig) → Buf (Elt F) ℓ) [FloatOps F] [Named F]
variable (ov : (d : Dev nD) → Buf (Elt F) (oLoc d))

def u₀ : UU :=
  (initOf (K (F := F)).hsCells (K (F := F)).hsToks,
    (initOf (Pipeline.PerCore.cells (cfgP) phinj) (Pipeline.PerCore.launchToks (cfgP) phinj), 1))

theorem ownU_parts (a : UH) (b : UP) (c : Counters) :
    (ownU ((a, (b, c)) : UU) : sProp 𝕄) ⊢ iprop(BI.own (EH a) ∗ BI.own (EP b)) := by
  iintro Hu
  ihave H := (ownU_pair a (b, c)) $$ Hu
  icases H with ⟨HH, HR⟩
  ihave H := (own_pair_emb (embR (A := UH) (B := UP × Counters)) b c) $$ HR
  icases H with ⟨HP, -⟩
  isplitl [HH]; · iexact HH
  unfold EP; iexact HP

theorem ghost_deal :
    iprop((bigSep Finset.univ fun c : Dev nD => bigSep Finset.univ fun p : Fin 2 => Pipeline.PerCore.cellsGhost (cfgP) EP p c)
        ∗ (bigSep Finset.univ fun c : Dev nD => bigSep Finset.univ fun p : Fin 2 =>
            (Pipeline.PerCore.toksInit (cfgP) EP p c : sProp 𝕄)))
      ⊢ bigSep Finset.univ fun d : Dev nD => (G d : sProp 𝕄) := by
  rw [← bigSep_sep']
  refine bigSep_mono fun c _ => ?_
  show iprop((bigSep Finset.univ fun p : Fin 2 => Pipeline.PerCore.cellsGhost (cfgP) EP p c)
      ∗ (bigSep Finset.univ fun p : Fin 2 => (Pipeline.PerCore.toksInit (cfgP) EP p c : sProp 𝕄))) ⊢ G c
  rw [bigSep_univ_two, bigSep_univ_two]
  iintro ⟨⟨Hc0, Hc1⟩, Ht0, Ht1⟩
  isplitl [Hc0 Ht0]
  · isplitl [Hc0] <;> iassumption
  · isplitl [Hc1] <;> iassumption

omit [FloatOps F] [Named F] in
theorem bigSep_emp' {I : Type} (s : Finset I) : (bigSep s fun _ => iprop(emp)) = (iprop(emp) : sProp 𝕄) := bigSep_emp_const s

theorem Px_emp :
    (bigSep Finset.univ fun thr : Thread nD τ => bigSep Finset.univ fun q : Fin 1 => (P (F := F) m ov).x q thr) = (iprop(emp) : sProp 𝕄) := by
  show (bigSep Finset.univ fun _ : Thread nD τ => bigSep Finset.univ fun _ : Fin 1 => (iprop(emp) : sProp 𝕄)) = iprop(emp)
  rw [bigSep_congr fun _ _ => bigSep_emp' _, bigSep_emp']

/-- The initial ghost state deals out every part the launch asks for. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m ov).x q thr) := by
  unfold u₀
  iintro Hu
  ihave H := (ownU_parts _ _ _) $$ Hu
  icases H with ⟨HH, HP⟩
  imod (Pipeline.PerCore.fund_ghost (cfgP) EP phinj) $$ HP with ⟨Hg, Ht⟩
  imodintro
  isplitl [HH]; · iexact HH
  isplitl [Hg Ht]
  · iapply ghost_deal
    isplitl [Hg] <;> iassumption
  · rw [Px_emp]; iempintro

end Cert.KernelIdeal.Elem

end
-- ==== Proof.Main.lean ====
import proofs.«217715_g15917148799621_cont_week2b_1297_29_alg».proof.Proof.Regs
import proofs.«217715_g15917148799621_cont_week2b_1297_29_alg».proof.Proof.Elem

noncomputable section

namespace Cert.KernelIdeal.Main

open Cert.KernelIdeal Cert.KernelIdeal.Gen Cert.KernelIdeal.Setup Cert.KernelIdeal.Regs

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sub_split held_congr wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (ov : (d : Dev nD) → Buf (Elt F) (oLoc d))

theorem hR0 : (opR0 (F := F)).bufs ⊆ Pipeline.ucRefs τ sig := Pipeline.sub_ucRefs _ (StableHlo.reshape_bufs_sub _ _ _ _ _ _)
theorem hR1 : (opR1 (F := F)).bufs ⊆ Pipeline.ucRefs τ sig := Pipeline.sub_ucRefs _ (StableHlo.reshape_bufs_sub _ _ _ _ _ _)
theorem hR2 : (opR2 (F := F)).bufs ⊆ Pipeline.ucRefs τ sig := Pipeline.sub_ucRefs _ (StableHlo.reshape_bufs_sub _ _ _ _ _ _)

abbrev S4 : Finset (DevRef τ sig) := {x', l', c', o'}
theorem hS4 : (S4 : Finset (DevRef τ sig)) ⊆ Pipeline.ucRefs τ sig := by decide

theorem held_S4 (d : Dev nD) (W : Valuation τ sig (Elt F)) :
    (held (SparseCore.T d) S4 W : sProp 𝕄)
      = iprop((xLoc d ↦{fullShare} W x') ∗ (lLoc d ↦{fullShare} W l') ∗ (cLoc d ↦{fullShare} W c') ∗ oLoc d ↦{fullShare} W o') := by
  unfold held S4
  rw [SparseCore.bigSep_insert' (by decide), SparseCore.bigSep_insert' (by decide), SparseCore.bigSep_insert' (by decide), bigSep_singleton]

theorem st0_eq (d : Dev nD) :
    (bigSep Finset.univ fun c : Fin ((K (F := F)).nCore 0) => (P m ov).st 0 d c) = iprop(xPts m d ∗ lPts m d ∗ cPts m d ∗ ∃ f, oPts d f) :=
  bigSep_univ_of_subsingleton (0 : Fin 1)
theorem dn0_eq (d : Dev nD) :
    (bigSep Finset.univ fun c : Fin ((K (F := F)).nCore 0) => (P m ov).dn 0 d c) = iprop(xPts m d ∗ lPts m d ∗ cPts m d ∗ oPts d (ov d)) :=
  bigSep_univ_of_subsingleton (0 : Fin 1)

theorem W1_of_ne (d : Dev nD) (b : DevRef τ sig) (hb : b ≠ v0') : W1 m d b = W0 m d b := by
  unfold W1
  exact (opR0 (F := F)).result_of_not_mem (W0 m d) (b := b) (by
    show b ∉ ({v0'} : Finset (DevRef τ sig)); rw [Finset.mem_singleton]; exact hb)
theorem W2_of_ne (d : Dev nD) (b : DevRef τ sig) (h9 : b ≠ p') (h10 : b ≠ mi') : W2 m d b = W1 m d b := by
  unfold W2; rw [Function.update_of_ne h10, Function.update_of_ne h9]
theorem W3_of_ne (d : Dev nD) (b : DevRef τ sig) (hb : b ≠ o') : W3 m ov d b = W2 m d b := by
  unfold W3; rw [Function.update_of_ne hb]
theorem W3_o (d : Dev nD) : W3 m ov d o' = ov d := by unfold W3; exact Function.update_self _ _ _
theorem W4_of_ne (d : Dev nD) (b : DevRef τ sig) (hb : b ≠ o3') : W4 m ov d b = W3 m ov d b := by
  unfold W4
  exact (opR1 (F := F)).result_of_not_mem (W3 m ov d) (b := b) (by
    show b ∉ ({o3'} : Finset (DevRef τ sig)); rw [Finset.mem_singleton]; exact hb)
theorem W6_of_ne (d : Dev nD) (b : DevRef τ sig) (hb : b ≠ r5') : W6 m ov d b = W5 m ov d b := by
  unfold W6
  exact (opR2 (F := F)).result_of_not_mem (W5 m ov d) (b := b) (by
    show b ∉ ({r5'} : Finset (DevRef τ sig)); rw [Finset.mem_singleton]; exact hb)

theorem W2_arg (d : Dev nD) (b : DevRef τ sig) (h0 : b ≠ v0') (h9 : b ≠ p') (h10 : b ≠ mi') : W2 m d b = m (d, b) := by
  rw [W2_of_ne m d b h9 h10, W1_of_ne m d b h0]

theorem W6_arg (d : Dev nD) (b : Ref sig .tc) (hw : ∀ w, Pipeline.arrRef spec2 w ≠ b)
    (h0 : (Proc.devRef .tc b : DevRef τ sig) ≠ v0') (h9 : (Proc.devRef .tc b : DevRef τ sig) ≠ p') (h10 : (Proc.devRef .tc b : DevRef τ sig) ≠ mi')
    (ho : (Proc.devRef .tc b : DevRef τ sig) ≠ o') (ho3 : (Proc.devRef .tc b : DevRef τ sig) ≠ o3') (h5 : (Proc.devRef .tc b : DevRef τ sig) ≠ r5') :
    W6 m ov d (Proc.devRef .tc b) = m (d, Proc.devRef .tc b) := by
  rw [W6_of_ne m ov d _ h5, W5_of_ne m ov d b hw, W4_of_ne m ov d _ ho3, W3_of_ne m ov d _ ho, W2_arg m d _ h0 h9 h10]

omit [FloatOps F] [Named F] in
theorem subset_Bn_iff [FloatOps F] [Named F] (d : Dev nD) (n : ℕ) (W : Waits sig (HIx 1)) :
    (↑W ⊆ Bn (F := F) d n) ↔ (K (F := F)).WBelow (SparseCore.T d) W (8 * n) :=
  ⟨fun h p hp => h (Finset.mem_coe.mpr hp), fun h p hp => h p (Finset.mem_coe.mp hp)⟩

theorem owesN_iff (d : Dev nD) (n : ℕ) :
    (iprop(∃ W, ⌜(K (F := F)).WBelow (SparseCore.T d) W (8 * n)⌝ ∗ owes (SparseCore.T d) ((K (F := F)).Otc d n) W) : sProp 𝕄) ⊣⊢ owesN (F := F) d n := by
  constructor
  · iintro ⟨%W, %hW, HO⟩; iexists W; isplitr; · ipureintro; exact (subset_Bn_iff (F := F) d n W).mpr hW
    iexact HO
  · iintro ⟨%W, %hW, HO⟩; iexists W; isplitr; · ipureintro; exact (subset_Bn_iff (F := F) d n W).mp hW
    iexact HO

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_def (d : Dev nD) (n : ℕ) :
    (K (F := F)).tcSt EH d n
      = iprop((∃ W, ⌜(K (F := F)).WBelow (SparseCore.T d) W (8 * n)⌝ ∗ owes (SparseCore.T d) ((K (F := F)).Otc d n) W) ∗ tcRest (F := F) d n) := rfl

theorem tcSt_split (d : Dev nD) (n : ℕ) : (K (F := F)).tcSt EH d n ⊢ iprop(owesN (F := F) d n ∗ tcRest (F := F) d n) := by
  rw [tcSt_def]; exact sep_mono_left (owesN_iff (F := F) d n).1
theorem tcSt_join (d : Dev nD) (n : ℕ) : iprop(owesN (F := F) d n ∗ tcRest (F := F) d n) ⊢ (K (F := F)).tcSt EH d n := by
  rw [tcSt_def]; exact sep_mono_left (owesN_iff (F := F) d n).2

theorem held_S4_W2 (d : Dev nD) :
    (held (SparseCore.T d) S4 (W2 m d) : sProp 𝕄) = iprop(xPts m d ∗ lPts m d ∗ cPts m d ∗ oPts d (W2 m d o')) := by
  rw [held_S4, W2_arg m d x' (by decide) (by decide) (by decide), W2_arg m d l' (by decide) (by decide) (by decide),
    W2_arg m d c' (by decide) (by decide) (by decide)]
theorem held_S4_W3 (d : Dev nD) :
    (held (SparseCore.T d) S4 (W3 m ov d) : sProp 𝕄) = iprop(xPts m d ∗ lPts m d ∗ cPts m d ∗ oPts d (ov d)) := by
  rw [held_S4, W3_of_ne m ov d x' (by decide), W3_of_ne m ov d l' (by decide), W3_of_ne m ov d c' (by decide), W3_o,
    W2_arg m d x' (by decide) (by decide) (by decide), W2_arg m d l' (by decide) (by decide) (by decide),
    W2_arg m d c' (by decide) (by decide) (by decide)]
theorem held_rest_W3 (d : Dev nD) :
    (held (SparseCore.T d) (Pipeline.ucRefs τ sig \ S4) (W3 m ov d) : sProp 𝕄) = held (SparseCore.T d) (Pipeline.ucRefs τ sig \ S4) (W2 m d) :=
  held_congr (SparseCore.T d) fun b hb => W3_of_ne m ov d b fun e => by
    subst e; exact (Finset.mem_sdiff.mp hb).2 (by decide)

theorem ucRefs_eq : Pipeline.ucRefs τ sig = ({x', l', c', v0', p', mi', o', o3', r4', r5'} : Finset (DevRef τ sig)) := by decide

theorem held_uc (d : Dev nD) (W : Valuation τ sig (Elt F)) :
    (held (SparseCore.T d) (Pipeline.ucRefs τ sig) W : sProp 𝕄)
      = iprop((((d, x') : Loc nD τ sig) ↦{fullShare} W x') ∗ (((d, l') : Loc nD τ sig) ↦{fullShare} W l') ∗ (((d, c') : Loc nD τ sig) ↦{fullShare} W c')
          ∗ (((d, v0') : Loc nD τ sig) ↦{fullShare} W v0') ∗ (((d, p') : Loc nD τ sig) ↦{fullShare} W p') ∗ (((d, mi') : Loc nD τ sig) ↦{fullShare} W mi')
          ∗ (((d, o') : Loc nD τ sig) ↦{fullShare} W o') ∗ (((d, o3') : Loc nD τ sig) ↦{fullShare} W o3') ∗ (((d, r4') : Loc nD τ sig) ↦{fullShare} W r4')
          ∗ (((d, r5') : Loc nD τ sig) ↦{fullShare} W r5')) := by
  unfold held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq10 (d : Dev nD) (W : (b : Ref sig .tc) → Buf (Elt F) ((d.tc : Thread nD τ).loc b)) :
    (unscopedBufs d W : sProp 𝕄)
      = iprop(((d.tc : Thread nD τ).loc main_arg0 ↦{fullShare} W main_arg0) ∗ ((d.tc : Thread nD τ).loc main_arg1 ↦{fullShare} W main_arg1)
          ∗ ((d.tc : Thread nD τ).loc main_arg2 ↦{fullShare} W main_arg2) ∗ ((d.tc : Thread nD τ).loc main_v0 ↦{fullShare} W main_v0)
          ∗ ((d.tc : Thread nD τ).loc main_v1_0 ↦{fullShare} W main_v1_0) ∗ ((d.tc : Thread nD τ).loc main_v1_1 ↦{fullShare} W main_v1_1)
          ∗ ((d.tc : Thread nD τ).loc main_v2 ↦{fullShare} W main_v2) ∗ ((d.tc : Thread nD τ).loc main_v3 ↦{fullShare} W main_v3)
          ∗ ((d.tc : Thread nD τ).loc main_v4 ↦{fullShare} W main_v4) ∗ ((d.tc : Thread nD τ).loc main_v5 ↦{fullShare} W main_v5)) := by
  unfold unscopedBufs
  rw [show (Finset.univ.filter fun b : Ref sig .tc => ¬ b.isScoped)
      = ({main_arg0, main_arg1, main_arg2, main_v0, main_v1_0, main_v1_1, main_v2, main_v3, main_v4, main_v5} : Finset (Ref sig .tc)) by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) :
    (unscopedBufs d (fun b => m ((SparseCore.T d).loc b)) : sProp 𝕄) = held (SparseCore.T d) (Pipeline.ucRefs τ sig) (W0 m d) := by
  rw [unscopedBufs_eq10, held_uc]

theorem reg0_pre (d : Dev nD) : (reg0 m ov).pre d
    = iprop(held (d : Thread nD τ) (Pipeline.ucRefs τ sig) (W1 m d) ∗ (∃ r, prngReg d r) ∗ owesN (F := F) d 0) := rfl
theorem reg0_post (d : Dev nD) : (reg0 m ov).post d
    = iprop(held (d : Thread nD τ) (Pipeline.ucRefs τ sig) (W2 m d) ∗ (∃ r, prngReg d r) ∗ owesN (F := F) d 0) := rfl
theorem reg2_pre (d : Dev nD) : (reg2 m ov).pre d
    = iprop(held (d : Thread nD τ) (Pipeline.ucRefs τ sig) (W4 m ov d) ∗ (∃ r, prngReg d r) ∗ owesN (F := F) d 1) := rfl
theorem reg2_post (d : Dev nD) : (reg2 m ov).post d
    = iprop(held (d : Thread nD τ) (Pipeline.ucRefs τ sig) (W5 m ov d) ∗ (∃ r, prngReg d r) ∗ owesN (F := F) d 1) := rfl

abbrev FINh (d : Dev nD) : sProp 𝕄 := held (SparseCore.T d) (Pipeline.ucRefs τ sig) (W6 m ov d)

set_option maxHeartbeats 4000000 in
set_option backward.isDefEq.respectTransparency.types false in
/-- The valuations `W0` … `W6` name every array after each step of the main thread; it ends holding all of them at `W6`. -/
theorem hmain (κ : GSem nD τ sig → ℕ) (d : Dev nD) :
    iprop((K (F := F)).ctx EH (P m ov) κ ∗ (K (F := F)).tcSt EH d 0 ∗ (K (F := F)).tcRes m ρ d ∗ Elem.G (F := F) d)
      ⊢ wp frame (wpE ((K (F := F)).defs (D (F := F))) 𝒱 (SparseCore.T d) none) Set.univ (main d)
          fun _ => iprop((K (F := F)).tcSt EH d 1 ∗ FINh m ov d) := by
  unfold SparseCore.Cfg.tcRes
  rw [unscoped_held m d]
  simp only [main, wp_bind, wp_pure]
  iintro ⟨#Hctx, Hst, ⟨Hb, Hheld, -, Hprng⟩, ⟨⟨Hc0, Ht0⟩, Hc1, Ht1⟩⟩
  ihave Hlev := (SparseCore.Cfg.ctx_levAts κ) $$ Hctx

  iapply (wp_hlo_within 𝒱 (SparseCore.T d) none Set.univ (op := opR0) (S := Pipeline.ucRefs τ sig) hR0 (V := W0 m d)) $$ [Hb Hheld]
  · iframe
  iintro ⟨Hb, Hheld⟩
  rw [wp_ret]; imodintro

  ihave Hs := (tcSt_split (F := F) d 0) $$ Hst
  icases Hs with ⟨HO, Hr0⟩
  rw [show (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) from rfl]
  iapply ((K (F := F)).wp_liftProg (D (F := F)) 𝒱 (SparseCore.T d) Set.univ none
    (.op (.customCall (Pipeline.entry 0) ()) fun _ => .ret ⟨⟩) _)
  iapply (Pipeline.RegionSeg.wp (pcfgs (F := F)) adm (pdats m ov) none cellOf_inj EP defs₀ 𝒱₀ (LK (F := F)) (lvK (F := F))
    (reg0 m ov) d none (fun u h => nomatch h) (fun _ => .ret ⟨⟩) _)
  isplitr [Hb Hheld Hprng HO Hc0 Ht0]
  swap
  · isplitl [Hb]; · iexact Hb
    isplitl [Hheld Hprng HO]
    · rw [reg0_pre]
      isplitl [Hheld]; · iexact Hheld
      isplitl [Hprng]; · iexists _; iexact Hprng
      iexact HO
    isplitr; · iexact Hlev
    isplitl [Hc0] <;> iassumption
  iintro ⟨Hb, Hpost⟩
  ihave Hpost := (Entails.of_eq (reg0_post (F := F) m ov d)) $$ Hpost
  icases Hpost with ⟨Hheld, Hp, HO⟩
  rw [wp_ret]; imodintro
  ihave Hst := (tcSt_join (F := F) d 0) $$ [HO Hr0]
  · isplitl [HO] <;> iassumption

  ihave Hh := (Entails.of_eq (held_sub_split (SparseCore.T d) hS4 (W2 m d))) $$ Hheld
  icases Hh with ⟨H4, Hrest⟩
  ihave H4 := (Entails.of_eq (held_S4_W2 (F := F) m d)) $$ H4
  icases H4 with ⟨Hx, Hl, Hc, Ho⟩
  iapply ((K (F := F)).wp_run (D (F := F)) 𝒱 (EH := EH) (P := P m ov) κ d 0) $$ [Hst Hx Hl Hc Ho Hb Hrest Hp Hc1 Ht1]
  isplitr; · iexact Hctx
  isplitl [Hst]; · iexact Hst
  isplitl [Hx Hl Hc Ho]
  · rw [st0_eq]
    iframe Hx Hl Hc
    iexists _; iexact Ho
  iintro ⟨Hst, Hdn⟩
  ihave Hst := (show (K (F := F)).tcSt EH d ((0 : Fin 1).val + 1) ⊢ (K (F := F)).tcSt EH d 1 from Entails.refl _) $$ Hst
  ihave Hdn := (Entails.of_eq (dn0_eq (F := F) m ov d)) $$ Hdn
  ihave H4 := (Entails.of_eq (held_S4_W3 (F := F) m ov d).symm) $$ Hdn
  ihave Hrest := (Entails.of_eq (held_rest_W3 (F := F) m ov d).symm) $$ Hrest
  ihave Hheld := (Entails.of_eq (held_sub_split (SparseCore.T d) hS4 (W3 m ov d)).symm) $$ [H4 Hrest]
  · isplitl [H4] <;> iassumption

  iapply (wp_hlo_within 𝒱 (SparseCore.T d) none Set.univ (op := opR1) (S := Pipeline.ucRefs τ sig) hR1 (V := W3 m ov d)) $$ [Hb Hheld]
  · iframe
  iintro ⟨Hb, Hheld⟩
  rw [wp_ret]; imodintro

  ihave Hs := (tcSt_split (F := F) d 1) $$ Hst
  icases Hs with ⟨HO, Hr1⟩
  rw [show (Prog.lift (.customCall (SparseCore.inner (Pipeline.entry 1)) ()) : Prog (TpuEff nD τ sig (Elt F) (SparseCore.Sig (ΛP (F := F)) 1) .tc) PUnit)
      = SparseCore.liftProg (.op (.customCall (Pipeline.entry 1) ()) fun _ => .ret ⟨⟩) from rfl]
  iapply ((K (F := F)).wp_liftProg (D (F := F)) 𝒱 (SparseCore.T d) Set.univ none
    (.op (.customCall (Pipeline.entry 1) ()) fun _ => .ret ⟨⟩) _)
  iapply (Pipeline.RegionSeg.wp (pcfgs (F := F)) adm (pdats m ov) none cellOf_inj EP defs₀ 𝒱₀ (LK (F := F)) (lvK (F := F))
    (reg2 m ov) d none (fun u h => nomatch h) (fun _ => .ret ⟨⟩) _)
  isplitr [Hb Hheld Hp HO Hc1 Ht1]
  swap
  · isplitl [Hb]; · iexact Hb
    isplitl [Hheld Hp HO]
    · rw [reg2_pre]
      isplitl [Hheld]; · iexact Hheld
      iframe
    isplitr; · iexact Hlev
    isplitl [Hc1] <;> iassumption
  iintro ⟨Hb, Hpost⟩
  ihave Hpost := (Entails.of_eq (reg2_post (F := F) m ov d)) $$ Hpost
  icases Hpost with ⟨Hheld, Hp, HO⟩
  rw [wp_ret]; imodintro
  ihave Hst := (tcSt_join (F := F) d 1) $$ [HO Hr1]
  · isplitl [HO] <;> iassumption

  iapply (wp_hlo_within 𝒱 (SparseCore.T d) none Set.univ (op := opR2) (S := Pipeline.ucRefs τ sig) hR2 (V := W5 m ov d)) $$ [Hb Hheld]
  · iframe
  iintro ⟨Hb, Hheld⟩
  rw [wp_ret]; imodintro; imodintro
  iframe Hst
  iexact Hheld

end Cert.KernelIdeal.Main

end
-- ==== Proof.Tile.lean ====
import proofs.«217715_g15917148799621_cont_week2b_1297_29_alg».proof.Proof.Setup
import Idealize.ShloMosaic.Lib.SparseCore.Stream
import Idealize.ShloMosaic.Lib.SparseCore.Ops
import Idealize.ShloMosaic.Lib.Writes
import Idealize.ShloMosaic.Lib.ValueIdx

noncomputable section

namespace Cert.KernelIdeal.Tile

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F] [Named F]

local notation "𝕄" => MT nD τ sig (HIx 1) (Elt F) ℕ UU ℕ

def chunk {R : Nat} (g : FVec F (⟨2, ![R, 128]⟩ : Shape) .f32) (b : Fin R) (k : Fin 8) : Vec F S1x16 .f32 :=
  fun j => g (ix2 b ⟨16 * k.val + (j 1).val, by
    have h1 : (j 1).val < 16 := (j 1).isLt
    have h2 := k.isLt
    omega⟩)

def rowDot (xv cv : Fin 8 → Vec F S1x16 .f32) : FVec F S1x16 .f32 :=
  k1_pay7 (k1_pay2 (xv 0) (cv 0)) (k1_pay3 (xv 1) (cv 1)) (k1_pay4 (xv 2) (cv 2)) (k1_pay5 (xv 3) (cv 3)) (k1_pay6 (xv 4)) (cv 4)
    (xv 5) (cv 5) (xv 6) (cv 6) (xv 7) (cv 7)

def labRow (w : BitVec 32) : Fin 90 := ⟨min w.toNat 89, by omega⟩

def srcRow (r : Fin 512) : Fin 16384 := ⟨15872 + r.val, by have := r.isLt; omega⟩

variable (m : (ℓ : Loc nD τ sig) → Buf (Elt F) ℓ)

abbrev xA (d : Dev nD) : FVec F S16384x128 .f32 := m (xLoc d)
abbrev lA (d : Dev nD) : IVec S16384 32 := m (lLoc d)
abbrev cA (d : Dev nD) : FVec F S90x128 .f32 := m (cLoc d)

def scOut (d : Dev nD) : Buf (Elt F) (oLoc d) :=
  show FVec F S512x16 .f32 from fun j =>
    rowDot (chunk (xA m d) (srcRow (j 0))) (chunk (cA m d) (labRow (lA m d (ix1 (srcRow (j 0)))))) (ix2 (0 : Fin 1) (j 1))

def LabOK : Prop := ∀ (d : Dev nD) (j : S16384.Idx), (lA m d j).toNat < 90

theorem rowDot_second (xv cv : Fin 8 → Vec F S1x16 .f32) :
    k1_pay1 (k1_pay13 (k1_pay10 (F := F)) (xv 2) (cv 2)) (k1_pay14 (k1_pay11 (F := F)) (xv 3) (cv 3))
      (k1_pay15 (k1_pay8 (F := F)) (k1_pay12 (xv 0)) (cv 0) (xv 4) (cv 4)) (k1_pay16 (k1_pay9 (F := F)) (xv 1) (cv 1) (xv 5) (cv 5))
      (k1_pay17 (xv 6)) (cv 6) (xv 7) (cv 7) = rowDot xv cv := rfl

theorem row0 (x : S1x16.Idx) : (x 0).val = 0 := by
  have h : (x 0).val < 1 := (x 0).isLt
  omega

theorem lane_lt (x : S1x16.Idx) : (x 1).val < 16 := (x 1).isLt

theorem idx_row_chunk {R : Nat} (off : Fin 2 → Nat) (inb : ∀ a, off a + S1x16.size a ≤ (⟨2, ![R, 128]⟩ : Shape).size a)
    (r : Fin R) (c : Fin 8) (hoff : off = ![r.val, 16 * c.val]) (x : S1x16.Idx) :
    (Rect.unit (s := (⟨2, ![R, 128]⟩ : Shape)) off S1x16.size inb).toLoadRect.idx x
      = ix2 r ⟨16 * c.val + (x 1).val, by have := lane_lt x; have := c.isLt; omega⟩ := by
  subst hoff
  funext a
  match a with
  | ⟨0, _⟩ =>
    apply Fin.ext
    show (![r.val, 16 * c.val] : Fin 2 → Nat) 0 + 1 * (x 0).val = r.val
    rw [row0 x]; simp
  | ⟨1, _⟩ =>
    apply Fin.ext
    show (![r.val, 16 * c.val] : Fin 2 → Nat) 1 + 1 * (x 1).val = 16 * c.val + (x 1).val
    simp

theorem read_row_chunk {R : Nat} (f : FVec F (⟨2, ![R, 128]⟩ : Shape) .f32) (off : Fin 2 → Nat)
    (inb : ∀ a, off a + S1x16.size a ≤ (⟨2, ![R, 128]⟩ : Shape).size a) (r : Fin R) (c : Fin 8) (hoff : off = ![r.val, 16 * c.val]) :
    (fun x => f ((Rect.unit (s := (⟨2, ![R, 128]⟩ : Shape)) off S1x16.size inb).toLoadRect.idx x)) = chunk f r c := by
  funext x
  rw [idx_row_chunk off inb r c hoff x]
  rfl

def RowsDone (fx fc : FVec F S32x128 .f32) (fp : FVec F S32x16 .f32) (n : Nat) : Prop :=
  ∀ (r : Fin 32) (l : Fin 16), r.val < n → fp (ix2 r l) = rowDot (chunk fx r) (chunk fc r) (ix2 (0 : Fin 1) l)

theorem rowsDone_zero (fx fc : FVec F S32x128 .f32) (fp : FVec F S32x16 .f32) : RowsDone fx fc fp 0 :=
  fun _ _ h => absurd h (Nat.not_lt_zero _)

theorem emb_row (off : Fin 2 → Nat) (inb : ∀ a, off a + S1x16.size a ≤ S32x16.size a) (a : Fin 32) (hoff : off = ![a.val, 0]) (l : Fin 16) :
    (Rect.unit (s := S32x16) off S1x16.size inb).emb (ix2 (0 : Fin 1) l) = ix2 a l := by
  subst hoff
  funext b
  match b with
  | ⟨0, _⟩ => apply Fin.ext; show (![a.val, 0] : Fin 2 → Nat) 0 + 1 * 0 = a.val; simp
  | ⟨1, _⟩ => apply Fin.ext; show (![a.val, 0] : Fin 2 → Nat) 1 + 1 * l.val = l.val; simp

theorem mem_row (off : Fin 2 → Nat) (inb : ∀ a, off a + S1x16.size a ≤ S32x16.size a) (a : Fin 32) (hoff : off = ![a.val, 0]) (r : Fin 32) (l : Fin 16) :
    ix2 r l ∈ (Rect.unit (s := S32x16) off S1x16.size inb).set ↔ r = a := by
  subst hoff
  rw [Rect.mem_set_unit]
  constructor
  · intro h
    have h0 : a.val ≤ r.val ∧ r.val < a.val + 1 := h 0
    apply Fin.ext
    omega
  · intro e b
    rw [e]
    match b with
    | ⟨0, _⟩ =>
      show a.val ≤ a.val ∧ a.val < a.val + 1
      omega
    | ⟨1, _⟩ =>
      have := l.isLt
      show (0 : Nat) ≤ l.val ∧ l.val < 0 + 16
      omega

/-- Two more rows written leave every earlier row as it was. -/
theorem rowsDone_step {fx fc : FVec F S32x128 .f32} {fp : FVec F S32x16 .f32} (k : Nat) (h : RowsDone fx fc fp (2 * k))
    (off0 off1 : Fin 2 → Nat) (inb0 : ∀ a, off0 a + S1x16.size a ≤ S32x16.size a) (inb1 : ∀ a, off1 a + S1x16.size a ≤ S32x16.size a)
    (a0 a1 : Fin 32) (ha0 : a0.val = 2 * k) (ha1 : a1.val = 2 * k + 1) (h0 : off0 = ![a0.val, 0]) (h1 : off1 = ![a1.val, 0])
    (w0 w1 : FVec F S1x16 .f32) (hw0 : w0 = rowDot (chunk fx a0) (chunk fc a0)) (hw1 : w1 = rowDot (chunk fx a1) (chunk fc a1)) :
    RowsDone fx fc
      ((View.whole (cc1_scratch3 : Ref sig .scVector)).writes (Elt F) fp
        [⟨Rect.unit (s := S32x16) off1 S1x16.size inb1, w1⟩, ⟨Rect.unit (s := S32x16) off0 S1x16.size inb0, w0⟩]) (2 * (k + 1)) := by
  intro r l hr
  show (View.whole (cc1_scratch3 : Ref sig .scVector)).read (Elt F)
    ((View.whole (cc1_scratch3 : Ref sig .scVector)).writes (Elt F) fp
      [⟨Rect.unit (s := S32x16) off1 S1x16.size inb1, w1⟩, ⟨Rect.unit (s := S32x16) off0 S1x16.size inb0, w0⟩]) (ix2 r l) = _
  by_cases e1 : r = a1
  · subst e1
    rw [← emb_row off1 inb1 r h1 l, View.read_writes_cons_emb, hw1]
  · have n1 : ix2 r l ∉ (Finset.univ : Finset (Rect.unit (s := S32x16) off1 S1x16.size inb1).shape.Idx).map (Rect.unit (s := S32x16) off1 S1x16.size inb1).emb := by
      rw [Rect.map_emb_univ, mem_row off1 inb1 a1 h1]; exact e1
    rw [View.writes_cons, View.read_slice_write_of_not_mem _ _ _ _ n1]
    by_cases e0 : r = a0
    · subst e0
      rw [← emb_row off0 inb0 r h0 l, View.read_writes_cons_emb, hw0]
    · have n0 : ix2 r l ∉ (Finset.univ : Finset (Rect.unit (s := S32x16) off0 S1x16.size inb0).shape.Idx).map (Rect.unit (s := S32x16) off0 S1x16.size inb0).emb := by
        rw [Rect.map_emb_univ, mem_row off0 inb0 a0 h0]; exact e0
      rw [View.writes_cons, View.read_slice_write_of_not_mem _ _ _ _ n0, View.writes_nil]
      refine h r l ?_
      have : r.val ≠ a0.val := fun e => e0 (Fin.ext e)
      have : r.val ≠ a1.val := fun e => e1 (Fin.ext e)
      omega

theorem whole_write_apply (b : Ref sig .scVector) (g w : b.ty.Contents (Elt F)) (x : b.ty.Idx) :
    (View.whole b).write (Elt F) g w Finset.univ x = w x := congrFun (View.write_whole_univ b g w) x

theorem whole_writes_apply (b : Ref sig .scVector) (g w : b.ty.Contents (Elt F)) (x : b.ty.Idx) :
    (View.whole b).writes (Elt F) g [⟨Rect.whole b.ty.shape, w⟩] x = w x := by
  rw [← View.write_univ_eq_writes_whole, View.writes_nil]
  exact whole_write_apply b g w x

abbrev xM : Memref sig .scVector .hbm S16384x128 .f32 := Memref.whole main_arg0_scv
abbrev lM : Memref sig .scVector .hbm S16384 .i32 := Memref.whole main_arg1_scv
abbrev cM : Memref sig .scVector .hbm S90x128 .f32 := Memref.whole main_arg2_scv
abbrev oM : Memref sig .scVector .hbm S512x16 .f32 := Memref.whole main_v2_scv

abbrev xS : Memref sig .scVector .vmem S32x128 .f32 := Memref.whole cc1_scratch0
abbrev lS : Memref sig .scVector .vmem S32 .i32 := Memref.whole cc1_scratch1
abbrev cS : Memref sig .scVector .vmem S32x128 .f32 := Memref.whole cc1_scratch2
abbrev pS : Memref sig .scVector .vmem S32x16 .f32 := Memref.whole cc1_scratch3

section Tile

variable (d : Dev nD) (L : grid1.Coords)

abbrev cT (L : grid1.Coords) : Fin τ.nSC := (L 0).castLE hcore1
abbrev jT (L : grid1.Coords) : Fin τ.nSub := (L 1).castLE hsub1
theorem bound_one : grid1.bound 1 = 16 := rfl
abbrev jL (L : grid1.Coords) : Fin 16 := Fin.cast bound_one (L 1)

abbrev thr (d : Dev nD) (L : grid1.Coords) : Thread nD τ := V d (cT L) (jT L)

theorem L0_val (L : grid1.Coords) : (L 0).val = 0 := by
  have h : (L 0).val < 1 := (L 0).isLt
  omega
theorem jL_val (L : grid1.Coords) : (jL L).val = (L 1).val := rfl
theorem jL_lt (L : grid1.Coords) : (L 1).val < 16 := (L 1).isLt

abbrev xRectK (L : grid1.Coords) : Rect S16384x128 := Rect.unit (s := S16384x128) (k1_off1 L) S32x128.size (k1_off1_inb L)
abbrev lRectK (L : grid1.Coords) : Rect S16384 := Rect.unit (s := S16384) (k1_off2 L) S32.size (k1_off2_inb L)
abbrev oRectK (L : grid1.Coords) : Rect S512x16 := Rect.unit (s := S512x16) (k1_off12 L) S32x16.size (k1_off12_inb L)
abbrev xK (L : grid1.Coords) : Memref sig .scVector .hbm S32x128 .f32 := (xM : Memref sig .scVector .hbm S16384x128 .f32).slice (xRectK L) (fun _ => rfl)
abbrev lK (L : grid1.Coords) : Memref sig .scVector .hbm S32 .i32 := (lM : Memref sig .scVector .hbm S16384 .i32).slice (lRectK L) (fun _ => rfl)
abbrev oK (L : grid1.Coords) : Memref sig .scVector .hbm S32x16 .f32 := (oM : Memref sig .scVector .hbm S512x16 .f32).slice (oRectK L) (fun _ => rfl)

theorem xRectK_eq : xRectK L = xRect (jL L) :=
  Rect.unit_congr (by rw [k1_off1_eq, L0_val L, jL_val L]; funext a; match a with | ⟨0, _⟩ => (show 32 * (L 1).val + 32 * 0 + 15872 = 15872 + 32 * (L 1).val; omega) | ⟨1, _⟩ => rfl) _ _
theorem lRectK_eq : lRectK L = lRect (jL L) :=
  Rect.unit_congr (by rw [k1_off2_eq, L0_val L, jL_val L]; funext a; match a with | ⟨0, _⟩ => (show 32 * (L 1).val + 32 * 0 + 15872 = 15872 + 32 * (L 1).val; omega)) _ _
theorem oRectK_eq : oRectK L = oRect (jL L) :=
  Rect.unit_congr (by rw [k1_off12_eq, L0_val L, jL_val L]; funext a; match a with | ⟨0, _⟩ => (show 32 * (L 1).val + 32 * 0 = 32 * (L 1).val; omega) | ⟨1, _⟩ => rfl) _ _

theorem set_xK : (xK L).view.set = xSet (jL L) := by
  show ((View.whole (main_arg0_scv : Ref sig .scVector)).slice (xRectK L)).set = (xRect (jL L)).set
  rw [View.set_slice_whole, xRectK_eq]
theorem set_lK : (lK L).view.set = lSet (jL L) := by
  show ((View.whole (main_arg1_scv : Ref sig .scVector)).slice (lRectK L)).set = (lRect (jL L)).set
  rw [View.set_slice_whole, lRectK_eq]
theorem set_oK : (oK L).view.set = oSet (jL L) := by
  show ((View.whole (main_v2_scv : Ref sig .scVector)).slice (oRectK L)).set = (oRect (jL L)).set
  rw [View.set_slice_whole, oRectK_eq]

omit [FloatOps F] [Named F] in
theorem pts_xK (f : Buf (Elt F) (xLoc d)) :
    ((xK L).view.loc (thr d L) ↦[(xK L).view.set]{fullShare} f : sProp 𝕄) = xLoc d ↦[xSet (jL L)]{fullShare} f := by
  rw [set_xK]
omit [FloatOps F] [Named F] in
theorem pts_lK (f : Buf (Elt F) (lLoc d)) :
    ((lK L).view.loc (thr d L) ↦[(lK L).view.set]{fullShare} f : sProp 𝕄) = lLoc d ↦[lSet (jL L)]{fullShare} f := by
  rw [set_lK]
omit [FloatOps F] [Named F] in
theorem pts_oK (f : Buf (Elt F) (oLoc d)) :
    ((oK L).view.loc (thr d L) ↦[(oK L).view.set]{fullShare} f : sProp 𝕄) = oLoc d ↦[oSet (jL L)]{fullShare} f := by
  rw [set_oK]
omit [FloatOps F] [Named F] in
theorem pts_cM (q : PosShare TreeShare) (f : Buf (Elt F) (cLoc d)) :
    ((cM : Memref sig .scVector .hbm S90x128 .f32).view.loc (thr d L) ↦{q} f : sProp 𝕄) = cLoc d ↦{q} f := rfl
omit [FloatOps F] [Named F] in
theorem pts_xS (f : Buf (Elt F) ((thr d L).loc cc1_scratch0)) :
    ((xS : Memref sig .scVector .vmem S32x128 .f32).view.loc (thr d L) ↦{fullShare} f : sProp 𝕄) = (thr d L).loc cc1_scratch0 ↦{fullShare} f := rfl
omit [FloatOps F] [Named F] in
theorem pts_lS (f : Buf (Elt F) ((thr d L).loc cc1_scratch1)) :
    ((lS : Memref sig .scVector .vmem S32 .i32).view.loc (thr d L) ↦{fullShare} f : sProp 𝕄) = (thr d L).loc cc1_scratch1 ↦{fullShare} f := rfl
omit [FloatOps F] [Named F] in
theorem pts_cS (f : Buf (Elt F) ((thr d L).loc cc1_scratch2)) :
    ((cS : Memref sig .scVector .vmem S32x128 .f32).view.loc (thr d L) ↦{fullShare} f : sProp 𝕄) = (thr d L).loc cc1_scratch2 ↦{fullShare} f := rfl
omit [FloatOps F] [Named F] in
theorem pts_pS (f : Buf (Elt F) ((thr d L).loc cc1_scratch3)) :
    ((pS : Memref sig .scVector .vmem S32x16 .f32).view.loc (thr d L) ↦{fullShare} f : sProp 𝕄) = (thr d L).loc cc1_scratch3 ↦{fullShare} f := rfl

abbrev cell (d : Dev nD) (L : grid1.Coords) (sm : DmaSem sig) : GSem nD τ sig := (thr d L, .dma sm)

omit [FloatOps F] [Named F] in
theorem cell_mem (sm : DmaSem sig) (h : (SemLoc.dma sm : SemLoc sig).isScoped .scVector = true) : cell d L sm ∈ ownCells (thr d L) :=
  (mem_ownCells (g := cell d L sm)).mpr ⟨rfl, h⟩
omit [FloatOps F] [Named F] in
theorem cell_ne {a b : DmaSem sig} (h : a ≠ b) : cell d L a ≠ cell d L b :=
  fun e => h (SemLoc.dma.inj (congrArg Prod.snd e))

omit [FloatOps F] [Named F] in
theorem ownSems0_V :
    (ownSems0 (thr d L) : sProp 𝕄)
      = iprop(semVal (cell d L cc1_scratch4.sem) 0 ∗ semVal (cell d L cc1_scratch5.sem) 0 ∗ semVal (cell d L cc1_scoped0.sem) 0 ∗ semVal (cell d L cc1_scoped1.sem) 0
          ∗ bigSep (((((ownCells (thr d L)).erase (cell d L cc1_scratch4.sem)).erase (cell d L cc1_scratch5.sem)).erase (cell d L cc1_scoped0.sem)).erase (cell d L cc1_scoped1.sem))
              fun g => semVal g 0) := by
  unfold SparseCore.Cfg.ownSems0
  rw [SparseCore.bigSep_erase' (cell_mem d L cc1_scratch4.sem (by decide)),
    SparseCore.bigSep_erase' (Finset.mem_erase.mpr ⟨cell_ne d L (by decide), cell_mem d L cc1_scratch5.sem (by decide)⟩),
    SparseCore.bigSep_erase' (Finset.mem_erase.mpr ⟨cell_ne d L (by decide), Finset.mem_erase.mpr ⟨cell_ne d L (by decide), cell_mem d L cc1_scoped0.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc1_scoped1.sem (by decide)⟩⟩⟩)]

abbrev sref (L : grid1.Coords) (b : Ref sig .scVector) : DevRef τ sig := (Proc.scVector (cT L) (jT L)).devRef b

omit [FloatOps F] [Named F] in
theorem sref_mem (b : Ref sig .scVector) (h : (sref L b).owner = .proc (Proc.scVector (cT L) (jT L))) :
    sref L b ∈ ownRefs (τ := τ) (.scVector (cT L) (jT L)) := SparseCore.Cfg.mem_ownRefs_of_owner h
omit [FloatOps F] [Named F] in
theorem sref_ne {a b : Ref sig .scVector} (h : a ≠ b) : sref L a ≠ sref L b :=
  fun e => h (Proc.devRef_injective _ e)

omit [FloatOps F] [Named F] in

theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cT L) (jT L))).erase (sref L cc1_scratch0)).erase (sref L cc1_scratch1)).erase (sref L cc1_scratch2)).erase (sref L cc1_scratch3))
              fun b => iprop(∃ f, ((d, b) : Loc nD τ sig) ↦{fullShare} f)) := by
  unfold SparseCore.Cfg.ownBufs
  refine (SparseCore.bigSep_erase' (sref_mem L cc1_scratch0 rfl)).trans ?_
  rw [SparseCore.bigSep_erase' (Finset.mem_erase.mpr ⟨sref_ne L (by decide), sref_mem L cc1_scratch1 rfl⟩),
    SparseCore.bigSep_erase' (Finset.mem_erase.mpr ⟨sref_ne L (by decide), Finset.mem_erase.mpr ⟨sref_ne L (by decide), sref_mem L cc1_scratch2 rfl⟩⟩),
    SparseCore.bigSep_erase' (Finset.mem_erase.mpr ⟨sref_ne L (by decide), Finset.mem_erase.mpr ⟨sref_ne L (by decide),
      Finset.mem_erase.mpr ⟨sref_ne L (by decide), sref_mem L cc1_scratch3 rfl⟩⟩⟩)]

def XOK (i : Fin 16) (fx : FVec F S32x128 .f32) : Prop :=
  ∀ (r : Fin 32) (c : Fin 128), fx (ix2 r c) = xA m d (ix2 (srcRow ⟨32 * i.val + r.val, by have := i.isLt; have := r.isLt; omega⟩) c)

def COK (i : Fin 16) (fc : FVec F S32x128 .f32) : Prop :=
  ∀ (r : Fin 32) (c : Fin 128), fc (ix2 r c)
    = cA m d (ix2 (labRow (lA m d (ix1 (srcRow ⟨32 * i.val + r.val, by have := i.isLt; have := r.isLt; omega⟩)))) c)

theorem emb_xK (r : Fin 32) (c : Fin 128) :
    (xRectK L).emb (ix2 r c) = ix2 (srcRow ⟨32 * (jL L).val + r.val, by have := (jL L).isLt; have := r.isLt; omega⟩) c := by
  funext a
  match a with
  | ⟨0, _⟩ =>
    apply Fin.ext
    show k1_off1 L 0 + 1 * r.val = 15872 + (32 * (L 1).val + r.val)
    rw [k1_off1_eq, L0_val L]
    show 32 * (L 1).val + 32 * 0 + 15872 + 1 * r.val = 15872 + (32 * (L 1).val + r.val)
    omega
  | ⟨1, _⟩ =>
    apply Fin.ext
    show k1_off1 L 1 + 1 * c.val = c.val
    rw [k1_off1_eq]
    show 0 + 1 * c.val = c.val
    omega

theorem emb_lK (r : Fin 32) :
    (lRectK L).emb (ix1 r) = ix1 (srcRow ⟨32 * (jL L).val + r.val, by have := (jL L).isLt; have := r.isLt; omega⟩) := by
  funext a
  match a with
  | ⟨0, _⟩ =>
    apply Fin.ext
    show k1_off2 L 0 + 1 * r.val = 15872 + (32 * (L 1).val + r.val)
    rw [k1_off2_eq, L0_val L]
    show 32 * (L 1).val + 32 * 0 + 15872 + 1 * r.val = 15872 + (32 * (L 1).val + r.val)
    omega

theorem emb_oK (r : Fin 32) (l : Fin 16) :
    (oRectK L).emb (ix2 r l) = ix2 (⟨32 * (jL L).val + r.val, by have := (jL L).isLt; have := r.isLt; omega⟩ : Fin 512) l := by
  funext a
  match a with
  | ⟨0, _⟩ =>
    apply Fin.ext
    show k1_off12 L 0 + 1 * r.val = 32 * (L 1).val + r.val
    rw [k1_off12_eq, L0_val L]
    show 32 * (L 1).val + 32 * 0 + 1 * r.val = 32 * (L 1).val + r.val
    omega
  | ⟨1, _⟩ =>
    apply Fin.ext
    show k1_off12 L 1 + 1 * l.val = l.val
    rw [k1_off12_eq]
    show 0 + 1 * l.val = l.val
    omega

theorem xok_of_payload (fx : FVec F S32x128 .f32)
    (h : ∀ (r : Fin 32) (c : Fin 128), fx (ix2 r c) = (xK L).view.read (Elt F) (m (xLoc d)) (ix2 r c)) : XOK m d (jL L) fx := by
  intro r c
  rw [h r c]
  show xA m d ((xRectK L).emb (ix2 r c)) = _
  rw [emb_xK]

theorem lab_of_payload (fl : IVec S32 32) (h : ∀ r : Fin 32, fl (ix1 r) = (lK L).view.read (Elt F) (m (lLoc d)) (ix1 r)) (r : Fin 32) :
    fl (ix1 r) = lA m d (ix1 (srcRow ⟨32 * (jL L).val + r.val, by have := (jL L).isLt; have := r.isLt; omega⟩)) := by
  rw [h r]
  show lA m d ((lRectK L).emb (ix1 r)) = _
  rw [emb_lK]

theorem numel_S32 : S32.numel = 32 := rfl

theorem rowMajor_symm_S32 (k : Fin S32.numel) : S32.rowMajor.symm k = ix1 (⟨k.val, numel_S32 ▸ k.isLt⟩ : Fin 32) := by
  apply (Equiv.symm_apply_eq _).mpr
  apply Fin.ext
  rw [Shape.rowMajor_val_one]

theorem gather_idx (hg : S90x128.Gathers 0 S32x128) (rows : Fin (S32x128.size hg.axis') → Fin (S90x128.size hg.axis)) (r : Fin 32) (c : Fin 128) :
    hg.idx rows (ix2 r c) = ix2 (rows r) c := by
  funext b
  match b with
  | ⟨0, _⟩ => exact Shape.Gathers.idx_axis hg rows (ix2 r c)
  | ⟨1, h1⟩ => exact Fin.ext (Shape.Gathers.idx_of_ne hg rows (ix2 r c) ⟨1, h1⟩ Nat.one_ne_zero)

theorem emb_origin (inb : ∀ a, (![0, 0] : Fin 2 → Nat) a + S90x128.size a ≤ S90x128.size a) (y : S90x128.Idx) :
    (Rect.unit (s := S90x128) ![0, 0] S90x128.size inb).emb y = y := by
  funext a
  match a with
  | ⟨0, _⟩ => apply Fin.ext; show 0 + 1 * (y 0).val = (y 0).val; omega
  | ⟨1, _⟩ => apply Fin.ext; show 0 + 1 * (y 1).val = (y 1).val; omega

theorem cok_of_payload (hg : S90x128.Gathers 0 S32x128) (inb : ∀ a, (![0, 0] : Fin 2 → Nat) a + S90x128.size a ≤ S90x128.size a)
    (fl : IVec S32 32) (hn : S32.numel = S32x128.size hg.axis') (hin : ∀ x, (fl x).toNat < 90)
    (hl : ∀ r : Fin 32, fl (ix1 r) = lA m d (ix1 (srcRow ⟨32 * (jL L).val + r.val, by have := (jL L).isLt; have := r.isLt; omega⟩)))
    (fc : FVec F S32x128 .f32)
    (h : ∀ (r : Fin 32) (c : Fin 128), fc (ix2 r c) = SparseCore.gatherPayload hg
        (((cM : Memref sig .scVector .hbm S90x128 .f32).slice (Rect.unit (s := S90x128) ![0, 0] S90x128.size inb) (fun _ => rfl)).view.read (Elt F) (m (cLoc d)))
        (SparseCore.rows (F := F) fl hn hin) (ix2 r c)) :
    COK m d (jL L) fc := by
  intro r c
  rw [h r c]
  unfold SparseCore.gatherPayload
  show ((cM : Memref sig .scVector .hbm S90x128 .f32).slice (Rect.unit (s := S90x128) ![0, 0] S90x128.size inb) (fun _ => rfl)).view.read (Elt F) (m (cLoc d))
    (hg.idx (SparseCore.rows (F := F) fl hn hin) (ix2 r c)) = _
  rw [gather_idx]
  show cA m d ((Rect.unit (s := S90x128) ![0, 0] S90x128.size inb).emb (ix2 (SparseCore.rows (F := F) fl hn hin r) c)) = _
  rw [emb_origin]
  refine congrArg (fun z : Fin 90 => cA m d (ix2 z c)) ?_
  apply Fin.ext
  show (fl (S32.rowMajor.symm (Fin.cast hn.symm r))).toNat = min _ 89
  rw [rowMajor_symm_S32]
  show (fl (ix1 r)).toNat = min _ 89
  have h90 := hin (ix1 r)
  rw [hl r] at h90 ⊢
  omega

def inv (k : Nat) (_ : Unit) : sProp 𝕄 :=
  iprop(∃ fx : Buf (Elt F) ((xS : Memref sig .scVector .vmem S32x128 .f32).view.loc (thr d L)),
    ∃ fc : Buf (Elt F) ((cS : Memref sig .scVector .vmem S32x128 .f32).view.loc (thr d L)),
    ∃ fp : Buf (Elt F) ((pS : Memref sig .scVector .vmem S32x16 .f32).view.loc (thr d L)),
    ((xS : Memref sig .scVector .vmem S32x128 .f32).view.loc (thr d L) ↦{fullShare} fx)
    ∗ ((cS : Memref sig .scVector .vmem S32x128 .f32).view.loc (thr d L) ↦{fullShare} fc)
    ∗ ((pS : Memref sig .scVector .vmem S32x16 .f32).view.loc (thr d L) ↦{fullShare} fp)
    ∗ ⌜XOK m d (jL L) fx ∧ COK m d (jL L) fc ∧ RowsDone fx fc fp (2 * k)⌝)

theorem out_value (i : Fin 16) (fx fc : FVec F S32x128 .f32) (fp : FVec F S32x16 .f32) (hx : XOK m d i fx) (hc : COK m d i fc)
    (hp : RowsDone fx fc fp 32) (r : Fin 32) (l : Fin 16) :
    fp (ix2 r l) = (show FVec F S512x16 .f32 from scOut m d) (ix2 ⟨32 * i.val + r.val, by have := i.isLt; have := r.isLt; omega⟩ l) := by
  rw [hp r l r.isLt]
  unfold scOut
  show _ = rowDot _ _ (ix2 (0 : Fin 1) l)
  congr 1
  · funext k j; exact hx r _
  · funext k j; exact hc r _

theorem readAt_xS (fx : Buf (Elt F) ((xS : Memref sig .scVector .vmem S32x128 .f32).view.loc (thr d L))) (off : Fin 2 → Nat)
    (inb : ∀ a, off a + S1x16.size a ≤ S32x128.size a) (a : Fin 32) (c : Fin 8) (hoff : off = ![a.val, 16 * c.val]) :
    (xS : Memref sig .scVector .vmem S32x128 .f32).view.readAt (Elt F) (Rect.unit (s := S32x128) off S1x16.size inb).toLoadRect fx
      = chunk (R := 32) fx a c :=
  read_row_chunk (R := 32) fx off inb a c hoff

theorem readAt_cS (fc : Buf (Elt F) ((cS : Memref sig .scVector .vmem S32x128 .f32).view.loc (thr d L))) (off : Fin 2 → Nat)
    (inb : ∀ a, off a + S1x16.size a ≤ S32x128.size a) (a : Fin 32) (c : Fin 8) (hoff : off = ![a.val, 16 * c.val]) :
    (cS : Memref sig .scVector .vmem S32x128 .f32).view.readAt (Elt F) (Rect.unit (s := S32x128) off S1x16.size inb).toLoadRect fc
      = chunk (R := 32) fc a c :=
  read_row_chunk (R := 32) fc off inb a c hoff

theorem out_ok (fo : Buf (Elt F) ((oK L).view.loc (thr d L))) (fx fc : FVec F S32x128 .f32)
    (fp : Buf (Elt F) ((pS : Memref sig .scVector .vmem S32x16 .f32).view.loc (thr d L)))
    (hx : XOK m d (jL L) fx) (hc : COK m d (jL L) fc) (hp : RowsDone fx fc fp 32) :
    ∀ i ∈ (oK L).view.set,
      (oK L).view.writes (Elt F) fo [⟨Rect.whole S32x16, (pS : Memref sig .scVector .vmem S32x16 .f32).view.read (Elt F) fp⟩] i = scOut m d i := by
  intro i hi
  obtain ⟨x, -, rfl⟩ := Finset.mem_map.mp hi
  rw [← View.write_univ_eq_writes_whole, View.writes_nil, View.write_emb_of_mem _ _ (Finset.mem_univ _), ValueIdx.eq_ix2 x]
  show fp (ix2 (x 0) (x 1)) = scOut m d ((oRectK L).emb (ix2 (x 0) (x 1)))
  rw [show (oRectK L).emb (ix2 (x 0) (x 1)) = _ from emb_oK L (x 0) (x 1)]
  exact out_value m d (jL L) fx fc fp hx hc hp (x 0) (x 1)

theorem labs_in_range (hpre : LabOK m) :
    ∀ (g : Buf (Elt F) ((lS : Memref sig .scVector .vmem S32 .i32).view.loc (thr d L))) (x : S32.Idx),
      ((lS : Memref sig .scVector .vmem S32 .i32).view.read (Elt F)
        ((lS : Memref sig .scVector .vmem S32 .i32).view.write (Elt F) g ((lK L).view.read (Elt F) (m (lLoc d))) Finset.univ) x).toNat < 90 := by
  intro g x
  rw [View.read_write_univ]
  exact hpre d ((lK L).view.emb x)

theorem labs_in_range' (hpre : LabOK m) :
    ∀ (g : Buf (Elt F) ((lS : Memref sig .scVector .vmem S32 .i32).view.loc (thr d L))) (x : S32.Idx),
      ((lS : Memref sig .scVector .vmem S32 .i32).view.read (Elt F)
        ((lS : Memref sig .scVector .vmem S32 .i32).view.writes (Elt F) g [⟨Rect.whole S32, (lK L).view.read (Elt F) (m (lLoc d))⟩]) x).toNat < 90 := by
  intro g x
  rw [← View.write_univ_eq_writes_whole, View.writes_nil]
  exact labs_in_range m d L hpre g x

/-- Row r of tile i's part of the result is the sixteen lane sums of row 15872 + 32 i + r of `x` against the center its label names. -/
theorem tile_body (hF : (K (F := F)).Facts) (hpre : LabOK m) (O : CellTallies nD τ sig (HIx 1)) (W : Waits sig (HIx 1)) (hO : ∀ g, O g none = 0) :
    iprop(levAts (K (F := F)).L (K (F := F)).lev ∗ emp
        ∗ (xRowPts m d (jL L) ∗ lRowPts m d (jL L) ∗ cTokPts m d (jL L) ∗ ∃ f, oRowPts d (jL L) f)
        ∗ scopedBufs (thr d L) ∗ scopedSems0 (thr d L) ∗ owes (thr d L) O W)
      ⊢ wp frame (wpE (defs₀ (F := F)) 𝒱₀ (thr d L) none) Set.univ
          (cc1__sc_pos_kernel L xM (Memref.isWhole_whole _) lM (Memref.isWhole_whole _) cM (Memref.isWhole_whole _) oM (Memref.isWhole_whole _)
            xS (Memref.isWhole_whole _) lS (Memref.isWhole_whole _) cS (Memref.isWhole_whole _) pS (Memref.isWhole_whole _)
            cc1_scratch4 cc1_scratch5 cc1_scoped0 cc1_scoped1)
          fun _ => iprop((xRowPts m d (jL L) ∗ lRowPts m d (jL L) ∗ cTokPts m d (jL L) ∗ oRowPts d (jL L) (scOut m d))
            ∗ scopedBufs (thr d L) ∗ scopedSems0 (thr d L)
            ∗ ∃ W', ⌜∀ p ∈ W', p ∈ W ∨ p.2 = none⌝ ∗ owes (thr d L) O W') := by
  simp only [cc1__sc_pos_kernel_eq_skeleton]; unfold cc1__sc_pos_kernel_skel
  rw [(K (F := F)).scopedBufs_V hF d (cT L) (jT L), SparseCore.Cfg.scopedSems0_V (Val := Elt F) d (cT L) (jT L), ownSems0_V, ownBufs_V]
  iintro ⟨#Hlv, -, ⟨Hx, Hl, Hc, ⟨%fo, Ho⟩⟩, ⟨⟨%fx0, Hxs⟩, ⟨%fl0, Hls⟩, ⟨%fc0, Hcs⟩, ⟨%fp0, Hps⟩, Hbufs⟩, ⟨Hs4, Hs5, Hs0, Hs1, Hsems⟩, HO⟩
  ihave Hmw := ((K (F := F)).mayWaits_none (thr := thr d L) hO) $$ Hlv
  ihave Hx' := (Entails.of_eq (pts_xK (F := F) d L _).symm) $$ Hx
  ihave Hl' := (Entails.of_eq (pts_lK (F := F) d L _).symm) $$ Hl
  ihave Hc' := (Entails.of_eq (pts_cM (F := F) d L _ _).symm) $$ Hc
  ihave Ho' := (Entails.of_eq (pts_oK (F := F) d L _).symm) $$ Ho
  ihave Hxs' := (Entails.of_eq (pts_xS (F := F) d L _).symm) $$ Hxs
  ihave Hls' := (Entails.of_eq (pts_lS (F := F) d L _).symm) $$ Hls
  ihave Hcs' := (Entails.of_eq (pts_cS (F := F) d L _).symm) $$ Hcs
  ihave Hps' := (Entails.of_eq (pts_pS (F := F) d L _).symm) $$ Hps

  have hin := labs_in_range m d L hpre
  have hin' := labs_in_range' m d L hpre
  sl_exec
  sl_for (inv m d L) $$ [Hxs' Hcs' Hps']
  case region =>
    intro k _
    have hk : k.val < 16 := lt_of_lt_of_le k.isLt k1_t1_abs.2.1
    unfold inv
    iintro ⟨%fx, %fc, %fp, Hxs, Hcs, Hps, %hI⟩
    try unfold k1_t1_body
    sl_exec
    sl_step
    iexists fx, fc, _
    isplitl [Hxs]; · iexact Hxs
    isplitl [Hcs]; · iexact Hcs
    isplitl [Hps]; · iexact Hps
    ipureintro
    refine ⟨hI.1, hI.2.1, ?_⟩
    refine rowsDone_step k.val hI.2.2 _ _ _ _ ⟨2 * k.val + 0, by omega⟩ ⟨2 * k.val + 1, by omega⟩ rfl rfl
      (k1_off11_eq k ⟨0, by decide⟩) (k1_off11_eq k ⟨1, by decide⟩) _ _ ?w0 ?w1
    case w0 =>
      sl_unfold_run_names
      unfold rowDot
      rw [readAt_xS d L fx _ _ ⟨2 * k.val + 0, by omega⟩ ⟨0, by decide⟩ (k1_off3_eq k ⟨0, by decide⟩),
        readAt_xS d L fx _ _ ⟨2 * k.val + 0, by omega⟩ ⟨1, by decide⟩ (k1_off4_eq k ⟨0, by decide⟩),
        readAt_xS d L fx _ _ ⟨2 * k.val + 0, by omega⟩ ⟨2, by decide⟩ (k1_off5_eq k ⟨0, by decide⟩),
        readAt_xS d L fx _ _ ⟨2 * k.val + 0, by omega⟩ ⟨3, by decide⟩ (k1_off6_eq k ⟨0, by decide⟩),
        readAt_xS d L fx _ _ ⟨2 * k.val + 0, by omega⟩ ⟨4, by decide⟩ (k1_off7_eq k ⟨0, by decide⟩),
        readAt_xS d L fx _ _ ⟨2 * k.val + 0, by omega⟩ ⟨5, by decide⟩ (k1_off8_eq k ⟨0, by decide⟩),
        readAt_xS d L fx _ _ ⟨2 * k.val + 0, by omega⟩ ⟨6, by decide⟩ (k1_off9_eq k ⟨0, by decide⟩),
        readAt_xS d L fx _ _ ⟨2 * k.val + 0, by omega⟩ ⟨7, by decide⟩ (k1_off10_eq k ⟨0, by decide⟩),
        readAt_cS d L fc _ _ ⟨2 * k.val + 0, by omega⟩ ⟨0, by decide⟩ (k1_off3_eq k ⟨0, by decide⟩),
        readAt_cS d L fc _ _ ⟨2 * k.val + 0, by omega⟩ ⟨1, by decide⟩ (k1_off4_eq k ⟨0, by decide⟩),
        readAt_cS d L fc _ _ ⟨2 * k.val + 0, by omega⟩ ⟨2, by decide⟩ (k1_off5_eq k ⟨0, by decide⟩),
        readAt_cS d L fc _ _ ⟨2 * k.val + 0, by omega⟩ ⟨3, by decide⟩ (k1_off6_eq k ⟨0, by decide⟩),
        readAt_cS d L fc _ _ ⟨2 * k.val + 0, by omega⟩ ⟨4, by decide⟩ (k1_off7_eq k ⟨0, by decide⟩),
        readAt_cS d L fc _ _ ⟨2 * k.val + 0, by omega⟩ ⟨5, by decide⟩ (k1_off8_eq k ⟨0, by decide⟩),
        readAt_cS d L fc _ _ ⟨2 * k.val + 0, by omega⟩ ⟨6, by decide⟩ (k1_off9_eq k ⟨0, by decide⟩),
        readAt_cS d L fc _ _ ⟨2 * k.val + 0, by omega⟩ ⟨7, by decide⟩ (k1_off10_eq k ⟨0, by decide⟩)]
      rfl
    case w1 =>
      sl_unfold_run_names
      rw [← rowDot_second]
      rw [readAt_xS d L fx _ _ ⟨2 * k.val + 1, by omega⟩ ⟨0, by decide⟩ (k1_off3_eq k ⟨1, by decide⟩),
        readAt_xS d L fx _ _ ⟨2 * k.val + 1, by omega⟩ ⟨1, by decide⟩ (k1_off4_eq k ⟨1, by decide⟩),
        readAt_xS d L fx _ _ ⟨2 * k.val + 1, by omega⟩ ⟨2, by decide⟩ (k1_off5_eq k ⟨1, by decide⟩),
        readAt_xS d L fx _ _ ⟨2 * k.val + 1, by omega⟩ ⟨3, by decide⟩ (k1_off6_eq k ⟨1, by decide⟩),
        readAt_xS d L fx _ _ ⟨2 * k.val + 1, by omega⟩ ⟨4, by decide⟩ (k1_off7_eq k ⟨1, by decide⟩),
        readAt_xS d L fx _ _ ⟨2 * k.val + 1, by omega⟩ ⟨5, by decide⟩ (k1_off8_eq k ⟨1, by decide⟩),
        readAt_xS d L fx _ _ ⟨2 * k.val + 1, by omega⟩ ⟨6, by decide⟩ (k1_off9_eq k ⟨1, by decide⟩),
        readAt_xS d L fx _ _ ⟨2 * k.val + 1, by omega⟩ ⟨7, by decide⟩ (k1_off10_eq k ⟨1, by decide⟩),
        readAt_cS d L fc _ _ ⟨2 * k.val + 1, by omega⟩ ⟨0, by decide⟩ (k1_off3_eq k ⟨1, by decide⟩),
        readAt_cS d L fc _ _ ⟨2 * k.val + 1, by omega⟩ ⟨1, by decide⟩ (k1_off4_eq k ⟨1, by decide⟩),
        readAt_cS d L fc _ _ ⟨2 * k.val + 1, by omega⟩ ⟨2, by decide⟩ (k1_off5_eq k ⟨1, by decide⟩),
        readAt_cS d L fc _ _ ⟨2 * k.val + 1, by omega⟩ ⟨3, by decide⟩ (k1_off6_eq k ⟨1, by decide⟩),
        readAt_cS d L fc _ _ ⟨2 * k.val + 1, by omega⟩ ⟨4, by decide⟩ (k1_off7_eq k ⟨1, by decide⟩),
        readAt_cS d L fc _ _ ⟨2 * k.val + 1, by omega⟩ ⟨5, by decide⟩ (k1_off8_eq k ⟨1, by decide⟩),
        readAt_cS d L fc _ _ ⟨2 * k.val + 1, by omega⟩ ⟨6, by decide⟩ (k1_off9_eq k ⟨1, by decide⟩),
        readAt_cS d L fc _ _ ⟨2 * k.val + 1, by omega⟩ ⟨7, by decide⟩ (k1_off10_eq k ⟨1, by decide⟩)]
      rfl
  · unfold inv
    iexists _, _, _
    isplitl [Hxs']; · iexact Hxs'
    isplitl [Hcs']; · iexact Hcs'
    isplitl [Hps']; · iexact Hps'
    ipureintro
    exact ⟨xok_of_payload m d L _ (fun r c => whole_write_apply cc1_scratch0 _ _ _),
      cok_of_payload m d L _ _ _ _ (fun x => hin fl0 x)
        (fun r => lab_of_payload m d L _
          (fun r' => congrFun (View.read_write_univ (v := (lS : Memref sig .scVector .vmem S32 .i32).view) fl0 _) (ix1 r')) r)
        _ (fun r c => whole_writes_apply cc1_scratch2 _ _ _),
      rowsDone_zero _ _ _⟩
  iintro %_ HI
  unfold inv
  icases HI with ⟨%fx, %fc, %fp, Hxs, Hcs, Hps, %hI⟩
  sl_exec
  sl_step
  have h32 : RowsDone fx fc fp 32 := by
    first
      | exact hI.2.2
      | (have htr : k1_t1_loop.trips = 16 := by decide +kernel
         have h := hI.2.2
         rw [htr] at h
         exact h)
  isplitl [Hx' Hl' Hc' Ho']
  · isplitl [Hx']; · iapply (Entails.of_eq (pts_xK (F := F) d L _)); iexact Hx'
    isplitl [Hl']; · iapply (Entails.of_eq (pts_lK (F := F) d L _)); iexact Hl'
    isplitl [Hc']; · iexact Hc'
    iapply (Entails.of_eq ((pointsTo_congr (out_ok m d L _ fx fc fp hI.1 hI.2.1 h32)).trans (pts_oK (F := F) d L (scOut m d))))
    iexact Ho'
  isplitl [Hxs Hls' Hcs Hps Hbufs]
  · isplitl [Hxs]; · iexists _; iexact Hxs
    isplitl [Hls']; · iexists _; iexact Hls'
    isplitl [Hcs]; · iexists _; iexact Hcs
    isplitl [Hps]; · iexists _; iexact Hps
    iexact Hbufs
  isplitl [Hs4 Hs5 Hs0 Hs1 Hsems]
  · isplitl [Hs4]; · iexact Hs4
    isplitl [Hs5]; · iexact Hs5
    isplitl [Hs0]; · iexact Hs0
    isplitl [Hs1]; · iexact Hs1
    iexact Hsems
  iexists _; isplitr
  swap
  · iexact HO
  ipureintro; intro p hp
  simp only [Finset.mem_insert] at hp
  rcases hp with rfl | rfl | rfl | rfl | hp
  exacts [.inr rfl, .inr rfl, .inr rfl, .inr rfl, .inl hp]

end Tile

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_pos_kernel (coordsV c s)
          xM (Memref.isWhole_whole _) lM (Memref.isWhole_whole _) cM (Memref.isWhole_whole _) oM (Memref.isWhole_whole _)
          xS (Memref.isWhole_whole _) lS (Memref.isWhole_whole _) cS (Memref.isWhole_whole _) pS (Memref.isWhole_whole _)
          cc1_scratch4 cc1_scratch5 cc1_scoped0 cc1_scoped1) ⟨⟩ c s := rfl

omit [FloatOps F] [Named F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : LabOK m) : (K (F := F)).TileObl (D (F := F)) 𝒱 (P m (scOut m)) v₀ 0 := by
  intro d c i O W hO _ _
  simp only [show (P m (scOut m)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.KernelIdeal.Tile

end
-- ==== Proof.Split.lean ====
import proofs.«217715_g15917148799621_cont_week2b_1297_29_alg».proof.Proof.Setup
import Idealize.ShloMosaic.Rules.PointsTo

noncomputable section

namespace Cert.KernelIdeal.Split

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

theorem xSet_disjoint : ∀ i ∈ (Finset.univ : Finset (Fin 16)), ∀ j ∈ (Finset.univ : Finset (Fin 16)), i ≠ j → Disjoint (xSet i) (xSet j) := by
  intro i _ j _ h
  have hne : i.val ≠ j.val := fun e => h (Fin.ext e)
  refine Rect.unit_disjoint (0 : Fin 2) ?_
  show 15872 + 32 * i.val + 32 ≤ 15872 + 32 * j.val ∨ 15872 + 32 * j.val + 32 ≤ 15872 + 32 * i.val
  omega

theorem lSet_disjoint : ∀ i ∈ (Finset.univ : Finset (Fin 16)), ∀ j ∈ (Finset.univ : Finset (Fin 16)), i ≠ j → Disjoint (lSet i) (lSet j) := by
  intro i _ j _ h
  have hne : i.val ≠ j.val := fun e => h (Fin.ext e)
  refine Rect.unit_disjoint (0 : Fin 1) ?_
  show 15872 + 32 * i.val + 32 ≤ 15872 + 32 * j.val ∨ 15872 + 32 * j.val + 32 ≤ 15872 + 32 * i.val
  omega

theorem oSet_disjoint : ∀ i ∈ (Finset.univ : Finset (Fin 16)), ∀ j ∈ (Finset.univ : Finset (Fin 16)), i ≠ j → Disjoint (oSet i) (oSet j) := by
  intro i _ j _ h
  have hne : i.val ≠ j.val := fun e => h (Fin.ext e)
  refine Rect.unit_disjoint (0 : Fin 2) ?_
  show 32 * i.val + 32 ≤ 32 * j.val ∨ 32 * j.val + 32 ≤ 32 * i.val
  omega

theorem oSet_cover : (Finset.univ : Finset (Fin 16)).biUnion oSet = Finset.univ := by
  ext x
  simp only [Finset.mem_biUnion, Finset.mem_univ, true_and, iff_true]
  have h0 : (x 0 : Nat) < 512 := (x 0).isLt
  have h1 : (x 1 : Nat) < 16 := (x 1).isLt
  refine ⟨⟨(x 0 : Nat) / 32, by omega⟩, Rect.mem_set_unit.mpr fun a => ?_⟩
  fin_cases a
  · show 32 * ((x 0 : Nat) / 32) ≤ (x 0 : Nat) ∧ (x 0 : Nat) < 32 * ((x 0 : Nat) / 32) + 32
    omega
  · show 0 ≤ (x 1 : Nat) ∧ (x 1 : Nat) < 0 + 16
    omega

theorem xPts_rows (d : Dev nD) (f : Buf (Elt F) (xLoc d)) :
    (xLoc d ↦{fullShare} f : sProp 𝕄)
      ⊣⊢ iprop((bigSep Finset.univ fun i : Fin 16 => xLoc d ↦[xSet i]{fullShare} f)
          ∗ xLoc d ↦[Finset.univ \ (Finset.univ : Finset (Fin 16)).biUnion xSet]{fullShare} f) := by
  rw [← pointsTo_biUnion Finset.univ (ℓ := xLoc d) xSet xSet_disjoint]
  exact pointsTo_split_subset (Finset.subset_univ _)

theorem lPts_rows (d : Dev nD) (f : Buf (Elt F) (lLoc d)) :
    (lLoc d ↦{fullShare} f : sProp 𝕄)
      ⊣⊢ iprop((bigSep Finset.univ fun i : Fin 16 => lLoc d ↦[lSet i]{fullShare} f)
          ∗ lLoc d ↦[Finset.univ \ (Finset.univ : Finset (Fin 16)).biUnion lSet]{fullShare} f) := by
  rw [← pointsTo_biUnion Finset.univ (ℓ := lLoc d) lSet lSet_disjoint]
  exact pointsTo_split_subset (Finset.subset_univ _)

theorem oPts_rows (d : Dev nD) (f : Buf (Elt F) (oLoc d)) :
    (oLoc d ↦{fullShare} f : sProp 𝕄) = bigSep Finset.univ fun i : Fin 16 => oLoc d ↦[oSet i]{fullShare} f := by
  rw [← pointsTo_biUnion Finset.univ (ℓ := oLoc d) oSet oSet_disjoint, oSet_cover]; try rfl

theorem oRows_any (d : Dev nD) (f : Buf (Elt F) (oLoc d)) :
    (oLoc d ↦{fullShare} f : sProp 𝕄) ⊢ bigSep Finset.univ fun i : Fin 16 => iprop(∃ g, oRowPts d i g) := by
  rw [oPts_rows]
  refine bigSep_mono fun i _ => (show (oLoc d ↦[oSet i]{fullShare} f : sProp 𝕄) ⊢ iprop(∃ g, oRowPts d i g) from ?_)
  iintro H
  iexists f
  iexact H

variable (m : (ℓ : Loc nD τ sig) → Buf (Elt F) ℓ) [FloatOps F] [Named F]
variable (ov : (d : Dev nD) → Buf (Elt F) (oLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sixteen tiles' row ranges are disjoint and cover the result, so the arrays split among them and join back. -/
theorem vecSplit : (K (F := F)).VecSplit' (P m ov) 0 := by
  intro d c
  show iprop(xPts m d ∗ lPts m d ∗ cPts m d ∗ ∃ f, oPts d f) ⊢ |={Set.univ}=> iprop(
      (bigSep Finset.univ fun i : Fin ((K (F := F)).nSub 0) =>
        iprop(xRowPts m d (Fin.cast nSub_zero i) ∗ lRowPts m d (Fin.cast nSub_zero i) ∗ cTokPts m d (Fin.cast nSub_zero i)
          ∗ ∃ f, oRowPts d (Fin.cast nSub_zero i) f))
      ∗ ((bigSep Finset.univ fun i : Fin ((K (F := F)).nSub 0) =>
          iprop(xRowPts m d (Fin.cast nSub_zero i) ∗ lRowPts m d (Fin.cast nSub_zero i) ∗ cTokPts m d (Fin.cast nSub_zero i)
            ∗ oRowPts d (Fin.cast nSub_zero i) (ov d)))
          -∗ iprop(xPts m d ∗ lPts m d ∗ cPts m d ∗ oPts d (ov d))))
  rw [bigSep_tasks (F := F) (fun i => iprop(xRowPts m d i ∗ lRowPts m d i ∗ cTokPts m d i ∗ ∃ f, oRowPts d i f)),
    bigSep_tasks (F := F) (fun i => iprop(xRowPts m d i ∗ lRowPts m d i ∗ cTokPts m d i ∗ oRowPts d i (ov d))),
    bigSep_sep', bigSep_sep', bigSep_sep', bigSep_sep', bigSep_sep', bigSep_sep']
  iintro ⟨Hx, Hl, Hc, %f, Ho⟩
  ihave Hx' := (xPts_rows d (m (xLoc d))).1 $$ Hx
  icases Hx' with ⟨Hxr, Hxk⟩
  ihave Hl' := (lPts_rows d (m (lLoc d))).1 $$ Hl
  icases Hl' with ⟨Hlr, Hlk⟩
  ihave Hc' := (pointsTo_toks_split (ℓ := cLoc d) (S := Finset.univ) (f := m (cLoc d)) fullShare 16) $$ Hc
  icases Hc' with ⟨Hck, Hct⟩
  ihave Ho' := (oRows_any d f) $$ Ho
  imodintro
  isplitl [Hxr Hlr Hct Ho']
  · iframe
  iintro ⟨Hxr, Hlr, Hct, Hor⟩
  isplitl [Hxr Hxk]
  · iapply (xPts_rows d (m (xLoc d))).2
    isplitl [Hxr] <;> iassumption
  isplitl [Hlr Hlk]
  · iapply (lPts_rows d (m (lLoc d))).2
    isplitl [Hlr] <;> iassumption
  isplitl [Hct Hck]
  · iapply (pointsTo_toks_join (ℓ := cLoc d) (S := Finset.univ) (f := m (cLoc d)) fullShare 16)
    isplitl [Hck] <;> iassumption
  iapply (Entails.of_eq (oPts_rows d (ov d)).symm)
  iexact Hor

end Cert.KernelIdeal.Split

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![16384, 128]⟩
abbrev SL : Shape := ⟨1, ![16384]⟩
abbrev SC : Shape := ⟨2, ![90, 128]⟩
abbrev S0 : Shape := ⟨0, ![]⟩

def eps : EReal := Ideal.ofBits .f32 0x2B8CBCCC#32

def epsR : ℝ := eps.toReal

theorem others_nonempty (l : Fin 90) : (Finset.univ.filter fun k : Fin 90 => k ≠ l).Nonempty :=
  if h : l = 0 then ⟨1, by rw [Finset.mem_filter]; exact ⟨Finset.mem_univ _, by rw [h]; decide⟩⟩
  else ⟨0, by rw [Finset.mem_filter]; exact ⟨Finset.mem_univ _, fun e => h e.symm⟩⟩

def den (cr : Fin 90 → Fin 128 → ℝ) (k : Fin 90) : ℝ := Real.sqrt (∑ j : Fin 128, cr k j * cr k j) + epsR

def cosv (xr : Fin 16384 → Fin 128 → ℝ) (cr : Fin 90 → Fin 128 → ℝ) (b : Fin 16384) (k : Fin 90) : ℝ :=
  ∑ j : Fin 128, xr b j * (cr k j / den cr k)

def best (xr : Fin 16384 → Fin 128 → ℝ) (cr : Fin 90 → Fin 128 → ℝ) (b : Fin 16384) (l : Fin 90) : ℝ :=
  (Finset.univ.filter fun k : Fin 90 => k ≠ l).sup' (others_nonempty l) fun k => cosv xr cr b k

def lossR (xr : Fin 16384 → Fin 128 → ℝ) (lb : Fin 16384 → Fin 90) (cr : Fin 90 → Fin 128 → ℝ) : ℝ :=
  (∑ b : Fin 16384, max (1 + best xr cr b (lb b) - cosv xr cr b (lb b)) 0) / 16384

def cls (w : BitVec 32) : Fin 90 := ⟨min w.toNat 89, by omega⟩

/-- The mean over the batch of the hinge of one plus the best other class's cosine minus the own class's cosine, centers normalised. -/
def loss (x : FVec Ideal SX .f32) (lab : IVec SL 32) (c : FVec Ideal SC .f32) : EReal :=
  ((lossR (fun b j => (x (ix2 b j)).toReal) (fun b => cls (lab (ix1 b))) (fun k j => (c (ix2 k j)).toReal) : ℝ) : EReal)

theorem loss_of_real (x : FVec Ideal SX .f32) (lab : IVec SL 32) (c : FVec Ideal SC .f32)
    (xr : Fin 16384 → Fin 128 → ℝ) (lb : Fin 16384 → Fin 90) (cr : Fin 90 → Fin 128 → ℝ)
    (hx : ∀ b j, x (ix2 b j) = (xr b j : EReal)) (hl : ∀ b, (lab (ix1 b)).toNat = (lb b).val)
    (hc : ∀ k j, c (ix2 k j) = (cr k j : EReal)) :
    loss x lab c = ((lossR xr lb cr : ℝ) : EReal) := by
  unfold loss
  have e1 : (fun b j => (x (ix2 b j)).toReal) = xr := funext fun b => funext fun j => by rw [hx, EReal.toReal_coe]
  have e2 : (fun b => cls (lab (ix1 b))) = lb := funext fun b => Fin.ext (by
    show min (lab (ix1 b)).toNat 89 = (lb b).val
    rw [hl]; have := (lb b).isLt; omega)
  have e3 : (fun k j => (c (ix2 k j)).toReal) = cr := funext fun k => funext fun j => by rw [hc, EReal.toReal_coe]
  rw [e1, e2, e3]

theorem eps_val : eps = (((2 ^ 23 + 834764 : ℕ) : ℝ) * (2 : ℝ) ^ (87 - 127 - 23 : Int) : ℝ) := by
  unfold eps
  simp [Ideal.ofBits, Ideal.ieee]

theorem eps_eq_coe : eps = (epsR : EReal) := by
  unfold epsR
  rw [eps_val, EReal.toReal_coe]

theorem epsR_pos : 0 < epsR := by
  unfold epsR
  rw [eps_val, EReal.toReal_coe]
  positivity

theorem den_pos (cr : Fin 90 → Fin 128 → ℝ) (k : Fin 90) : 0 < den cr k :=
  add_pos_of_nonneg_of_pos (Real.sqrt_nonneg _) epsR_pos

theorem coe_sum {ι : Type} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

theorem coe_max (a b : ℝ) : ((max a b : ℝ) : EReal) = max (a : EReal) (b : EReal) :=
  EReal.coe_strictMono.monotone.map_max

theorem one_val : Ideal.ofBits .f32 0x3F800000#32 = ((1 : ℝ) : EReal) := by
  have h : Ideal.ofBits .f32 0x3F800000#32 = (((2 ^ 23 + 0 : ℕ) : ℝ) * (2 : ℝ) ^ (127 - 127 - 23 : Int) : ℝ) := by
    simp [Ideal.ofBits, Ideal.ieee]
  rw [h]
  exact congrArg Real.toEReal (by norm_num)

theorem k16384_val : Ideal.ofBits .f32 0x46800000#32 = ((16384 : ℝ) : EReal) := by
  have h : Ideal.ofBits .f32 0x46800000#32 = (((2 ^ 23 + 0 : ℕ) : ℝ) * (2 : ℝ) ^ (141 - 127 - 23 : Int) : ℝ) := by
    simp [Ideal.ofBits, Ideal.ieee]
  rw [h]
  exact congrArg Real.toEReal (by norm_num)

theorem top_val : Ideal.ofBits .f32 0x7F800000#32 = ⊤ := by
  simp [Ideal.ofBits, Ideal.ieee]

theorem zero_val : Ideal.ofBits .f32 0x00000000#32 = ((0 : ℝ) : EReal) := by
  simp [Ideal.ofBits, Ideal.ieee]

end Cert.Spec

end
-- ==== Proof.PreFacts.lean ====
import proofs.«217715_g15917148799621_cont_week2b_1297_29_alg».proof.Pre_input_domain
import proofs.«217715_g15917148799621_cont_week2b_1297_29_alg».proof.Proof.Gen.Pre_input_domain
import proofs.«217715_g15917148799621_cont_week2b_1297_29_alg».proof.Proof.Spec
import Idealize.ShloMosaic.PureOps.Ideal
import Idealize.ShloMosaic.Lib.ValueIdx
import Idealize.ShloMosaic.Lib.ReduceAll
import Idealize.ShloMosaic.Lib.Affine
import Idealize.ShloMosaic.Lib.StableHlo.Predicate

noncomputable section

namespace Cert.PreFacts

open Idealize.ShloMosaic Idealize.ShloMosaic.ValueIdx Cert.Pre_input_domain

instance : Subsingleton S_.Idx := ⟨fun a b => funext fun d => d.elim0⟩

theorem ofBool_decide_eq_one {p : Prop} [Decidable p] : BitVec.ofBool (decide p) = 1#1 ↔ p :=
  (StableHlo.Predicate.ofBool_eq_one_iff _).trans (by simp only [decide_eq_true_eq])

section AnyInstance
variable {F : FTy → Type} [FloatOps F] [Cert.Pre_input_domain.Facts]

theorem elements (x0 : FVec F S16384x128 .f32) (x1 : IVec S16384 32) (x2 : FVec F S90x128 .f32)
    (h : Cert.Pre_input_domain.fn (F := F) x0 x1 x2 = fun _ => 1#1) :
    (∀ i : S16384x128.Idx, FloatOps.cmpf .olt (FloatOps.hostAbsf (x0 i)) (FloatOps.ofBits .f32 0x7F800000#32 : F .f32) = 1#1)
    ∧ (∀ i : S90x128.Idx, FloatOps.cmpf .olt (FloatOps.hostAbsf (x2 i)) (FloatOps.ofBits .f32 0x7F800000#32 : F .f32) = 1#1)
    ∧ (∀ i : S16384.Idx, IntOp.cmpi .sge (x1 i) 0#32 = 1#1 ∧ IntOp.cmpi .sle (x1 i) 89#32 = 1#1) := by
  have h0 := congrFun h ix0
  dsimp only [Cert.Pre_input_domain.fn] at h0
  obtain ⟨h12, h3⟩ := IntOp.andi_eq_one.1 h0
  obtain ⟨h1, h2⟩ := IntOp.andi_eq_one.1 h12
  refine ⟨fun i => ?_, fun i => ?_, fun i => ?_⟩
  · exact Host.reduce_andi_all _ _ _ _ ix0 h1 i
  · exact Host.reduce_andi_all _ _ _ _ ix0 h2 i
  · exact IntOp.andi_eq_one.1 (Host.reduce_andi_all _ _ _ _ ix0 h3 i)

theorem word_range (w : BitVec 32) (h0 : IntOp.cmpi .sge w 0#32 = 1#1) (h1 : IntOp.cmpi .sle w 89#32 = 1#1) :
    w.toNat ≤ 89 ∧ w.toInt = (w.toNat : Int) := by
  have hn : 2 * w.toNat < 2 ^ 32 := (Scalar.nonneg_iff w).1 h0
  have e : w.toInt = (w.toNat : Int) := StableHlo.Predicate.toInt_eq_toNat_of_lt (by omega)
  have hle : w.toInt ≤ (89#32 : BitVec 32).toInt := IntOp.cmpi_sle.1 h1
  have e89 : (89#32 : BitVec 32).toInt = 89 := by decide
  rw [e, e89] at hle
  exact ⟨by omega, e⟩

theorem label_range (x0 : FVec F S16384x128 .f32) (x1 : IVec S16384 32) (x2 : FVec F S90x128 .f32)
    (h : Cert.Pre_input_domain.fn (F := F) x0 x1 x2 = fun _ => 1#1) (i : S16384.Idx) :
    (x1 i).toNat ≤ 89 ∧ (x1 i).toInt = ((x1 i).toNat : Int) :=
  word_range _ ((elements x0 x1 x2 h).2.2 i).1 ((elements x0 x1 x2 h).2.2 i).2

def labelOf (x1 : IVec S16384 32) (hr : ∀ i : S16384.Idx, (x1 i).toNat ≤ 89) (b : Fin 16384) : Fin 90 :=
  ⟨(x1 (ix1 b)).toNat, Nat.lt_succ_of_le (hr (ix1 b))⟩

end AnyInstance

theorem real_of_abs_lt (x : EReal)
    (h : FloatOps.cmpf (F := Ideal) (φ := .f32) .olt (FloatOps.hostAbsf (F := Ideal) (φ := .f32) x) (FloatOps.ofBits .f32 0x7F800000#32) = 1#1) :
    ∃ r : ℝ, x = (r : EReal) := by
  have h' : BitVec.ofBool (decide (max x (-x) < Ideal.ofBits .f32 0x7F800000#32)) = 1#1 := h
  have hlt : max x (-x) < Ideal.ofBits .f32 0x7F800000#32 := ofBool_decide_eq_one.1 h'
  rw [Cert.Spec.top_val] at hlt
  induction x using EReal.rec with
  | bot => rw [EReal.neg_bot, max_eq_right bot_le] at hlt; exact absurd hlt (lt_irrefl _)
  | top => rw [max_eq_left le_top] at hlt; exact absurd hlt (lt_irrefl _)
  | coe r => exact ⟨r, rfl⟩

variable [Cert.Pre_input_domain.Facts]

/-- Finite entries are reals and labels in range are classes: the witnesses every value lemma is stated over. -/
theorem witnesses (x0 : FVec Ideal S16384x128 .f32) (x1 : IVec S16384 32) (x2 : FVec Ideal S90x128 .f32)
    (h : Cert.Pre_input_domain.fn (F := Ideal) x0 x1 x2 = fun _ => 1#1) :
    ∃ (xr : Fin 16384 → Fin 128 → ℝ) (lb : Fin 16384 → Fin 90) (cr : Fin 90 → Fin 128 → ℝ),
      (∀ b j, x0 (ix2 b j) = (xr b j : EReal)) ∧ (∀ b, (x1 (ix1 b)).toNat = (lb b).val)
      ∧ (∀ k j, x2 (ix2 k j) = (cr k j : EReal)) := by
  obtain ⟨e0, e2, -⟩ := elements x0 x1 x2 h
  refine ⟨fun b j => (x0 (ix2 b j)).toReal, labelOf x1 (fun i => (label_range x0 x1 x2 h i).1),
    fun k j => (x2 (ix2 k j)).toReal, fun b j => ?_, fun b => rfl, fun k j => ?_⟩
  · obtain ⟨r, hr⟩ := real_of_abs_lt _ (e0 (ix2 b j))
    show x0 (ix2 b j) = (((x0 (ix2 b j)).toReal : ℝ) : EReal)
    rw [hr, EReal.toReal_coe]
  · obtain ⟨r, hr⟩ := real_of_abs_lt _ (e2 (ix2 k j))
    show x2 (ix2 k j) = (((x2 (ix2 k j)).toReal : ℝ) : EReal)
    rw [hr, EReal.toReal_coe]

end Cert.PreFacts

end
-- ==== Proof.RefValue.lean ====
import proofs.«217715_g15917148799621_cont_week2b_1297_29_alg».proof.Proof.Spec
import proofs.«217715_g15917148799621_cont_week2b_1297_29_alg».proof.Proof.PreFacts
import proofs.«217715_g15917148799621_cont_week2b_1297_29_alg».proof.Proof.Gen.ReferenceIdeal
import proofs.«217715_g15917148799621_cont_week2b_1297_29_alg».proof.Proof.Gen.ReferenceIdeal.Run
import proofs.«217715_g15917148799621_cont_week2b_1297_29_alg».proof.Proof.Gen.ReferenceIdeal.Read
import Idealize.ShloMosaic.Lib.ValueIdx
import Idealize.ShloMosaic.Lib.ValueIdxRank1
import Idealize.ShloMosaic.Lib.Pipeline.Value
import Idealize.ShloMosaic.Lib.Affine
import Idealize.ShloMosaic.Lib.StableHlo.Predicate
import Idealize.ShloMosaic.PureOps.Ideal.Laws
import Idealize.ShloMosaic.PureOps.Reduce

noncomputable section

open scoped BigOperators

namespace Cert.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.Spec

/-- One minus a cosine is least where the cosine is greatest, so the masked minimum is one minus the maximum over the other classes. -/
theorem fold_min_masked (l : Fin 90) (f : Fin 90 → ℝ) :
    (Finset.univ : Finset (Fin 90)).fold min (⊤ : EReal) (fun k => if k = l then (⊤ : EReal) else ((1 - f k : ℝ) : EReal))
      = ((1 - (Finset.univ.filter fun k : Fin 90 => k ≠ l).sup' (others_nonempty l) f : ℝ) : EReal) := by
  refine eq_of_forall_le_iff fun c => ?_
  rw [Finset.le_fold_min]
  obtain ⟨k0, hk0, e0⟩ := Finset.exists_mem_eq_sup' (others_nonempty l) f
  have hk0' : k0 ≠ l := (Finset.mem_filter.1 hk0).2
  constructor
  · rintro ⟨-, hall⟩
    have h1 : c ≤ (if k0 = l then (⊤ : EReal) else ((1 - f k0 : ℝ) : EReal)) := hall k0 (Finset.mem_univ _)
    rw [if_neg hk0'] at h1
    rw [e0]; exact h1
  · intro hc
    refine ⟨le_top, fun k _ => ?_⟩
    show c ≤ (if k = l then (⊤ : EReal) else ((1 - f k : ℝ) : EReal))
    by_cases hk : k = l
    · rw [if_pos hk]; exact le_top
    · rw [if_neg hk]
      refine hc.trans (EReal.coe_le_coe_iff.2 ?_)
      have : f k ≤ (Finset.univ.filter fun k : Fin 90 => k ≠ l).sup' (others_nonempty l) f :=
        Finset.le_sup' f (Finset.mem_filter.2 ⟨Finset.mem_univ _, hk⟩)
      linarith

theorem select_of_ne {α : Type} (c : BitVec 1) (a b : α) (h : ¬ c = 1#1) : Scalar.select c a b = b := if_neg h
theorem select_of_eq {α : Type} (c : BitVec 1) (a b : α) (h : c = 1#1) : Scalar.select c a b = a := if_pos h

theorem gather_si0 (b : Fin 16384) :
    gather_S16384x90_S16384x2_S16384_n_01_n_n_01_1_11.siIdx (ix1 b) ⟨List.idxOf (0 : Fin S16384x90.rank) gather_S16384x90_S16384x2_S16384_n_01_n_n_01_1_11.startIndexMap,
      List.idxOf_lt_length_iff.2 (by decide)⟩ = ix2 b (0 : Fin 2) := by
  funext c; refine Fin.ext ?_
  match c with
  | ⟨0, _⟩ => rfl
  | ⟨1, _⟩ => rfl

theorem gather_si1 (b : Fin 16384) :
    gather_S16384x90_S16384x2_S16384_n_01_n_n_01_1_11.siIdx (ix1 b) ⟨List.idxOf (1 : Fin S16384x90.rank) gather_S16384x90_S16384x2_S16384_n_01_n_n_01_1_11.startIndexMap,
      List.idxOf_lt_length_iff.2 (by decide)⟩ = ix2 b (1 : Fin 2) := by
  funext c; refine Fin.ext ?_
  match c with
  | ⟨0, _⟩ => rfl
  | ⟨1, _⟩ => rfl

theorem gather_start0 (idx : IVec S16384x2 32) (b : Fin 16384) :
    gather_S16384x90_S16384x2_S16384_n_01_n_n_01_1_11.start (ix1 b) idx (0 : Fin S16384x90.rank) = min (idx (ix2 b (0 : Fin 2))).toInt.toNat 16383 := by
  unfold GatherDims.start
  rw [dif_pos (show (0 : Fin S16384x90.rank) ∈ gather_S16384x90_S16384x2_S16384_n_01_n_n_01_1_11.startIndexMap by decide), gather_si0 b]
  rfl

theorem gather_start1 (idx : IVec S16384x2 32) (b : Fin 16384) :
    gather_S16384x90_S16384x2_S16384_n_01_n_n_01_1_11.start (ix1 b) idx (1 : Fin S16384x90.rank) = min (idx (ix2 b (1 : Fin 2))).toInt.toNat 89 := by
  unfold GatherDims.start
  rw [dif_pos (show (1 : Fin S16384x90.rank) ∈ gather_S16384x90_S16384x2_S16384_n_01_n_n_01_1_11.startIndexMap by decide), gather_si1 b]
  rfl

theorem gather_coord0 (idx : IVec S16384x2 32) (b : Fin 16384) :
    (gather_S16384x90_S16384x2_S16384_n_01_n_n_01_1_11.operandIdx (ix1 b) idx (0 : Fin S16384x90.rank)).val = min (idx (ix2 b (0 : Fin 2))).toInt.toNat 16383 := by
  show gather_S16384x90_S16384x2_S16384_n_01_n_n_01_1_11.start (ix1 b) idx (0 : Fin S16384x90.rank) + gather_S16384x90_S16384x2_S16384_n_01_n_n_01_1_11.batchCoord (ix1 b) (0 : Fin S16384x90.rank)
    + gather_S16384x90_S16384x2_S16384_n_01_n_n_01_1_11.offCoord (ix1 b) (0 : Fin S16384x90.rank) = _
  rw [GatherDims.batchCoord_eq_zero gather_S16384x90_S16384x2_S16384_n_01_n_n_01_1_11 (ix1 b) (0 : Fin S16384x90.rank) (by decide),
    GatherDims.offCoord_eq_zero gather_S16384x90_S16384x2_S16384_n_01_n_n_01_1_11 (ix1 b) (0 : Fin S16384x90.rank) (by decide), Nat.add_zero]
  exact gather_start0 idx b

theorem gather_coord1 (idx : IVec S16384x2 32) (b : Fin 16384) :
    (gather_S16384x90_S16384x2_S16384_n_01_n_n_01_1_11.operandIdx (ix1 b) idx (1 : Fin S16384x90.rank)).val = min (idx (ix2 b (1 : Fin 2))).toInt.toNat 89 := by
  show gather_S16384x90_S16384x2_S16384_n_01_n_n_01_1_11.start (ix1 b) idx (1 : Fin S16384x90.rank) + gather_S16384x90_S16384x2_S16384_n_01_n_n_01_1_11.batchCoord (ix1 b) (1 : Fin S16384x90.rank)
    + gather_S16384x90_S16384x2_S16384_n_01_n_n_01_1_11.offCoord (ix1 b) (1 : Fin S16384x90.rank) = _
  rw [GatherDims.batchCoord_eq_zero gather_S16384x90_S16384x2_S16384_n_01_n_n_01_1_11 (ix1 b) (1 : Fin S16384x90.rank) (by decide),
    GatherDims.offCoord_eq_zero gather_S16384x90_S16384x2_S16384_n_01_n_n_01_1_11 (ix1 b) (1 : Fin S16384x90.rank) (by decide), Nat.add_zero]
  exact gather_start1 idx b

theorem gather_operand (idx : IVec S16384x2 32) (b r : Fin 16384) (k : Fin 90)
    (h0 : min (idx (ix2 b (0 : Fin 2))).toInt.toNat 16383 = r.val) (h1 : min (idx (ix2 b (1 : Fin 2))).toInt.toNat 89 = k.val) :
    gather_S16384x90_S16384x2_S16384_n_01_n_n_01_1_11.operandIdx (ix1 b) idx = ix2 r k := by
  funext a; refine Fin.ext ?_
  match a with
  | ⟨0, _⟩ => exact (gather_coord0 idx b).trans h0
  | ⟨1, _⟩ => exact (gather_coord1 idx b).trans h1

section Stages

variable (x0 : (⟨S16384x128, .f32⟩ : BufTy).Contents (Elt Ideal)) (x1 : (⟨S16384, .i32⟩ : BufTy).Contents (Elt Ideal))
  (x2 : (⟨S90x128, .f32⟩ : BufTy).Contents (Elt Ideal))
  (xr : Fin 16384 → Fin 128 → ℝ) (lb : Fin 16384 → Fin 90) (cr : Fin 90 → Fin 128 → ℝ)
  (hx : ∀ b j, x0 (ix2 b j) = ((xr b j : ℝ) : EReal)) (hl : ∀ b, BitVec.toNat (x1 (ix1 b)) = (lb b).val)
  (hc : ∀ k j, x2 (ix2 k j) = ((cr k j : ℝ) : EReal))

include hc in

theorem sumsq_at (k : Fin 90) :
    val_main_call0_v1 (F := Ideal) x2 (ix1 k) = ((∑ j : Fin 128, cr k j * cr k j : ℝ) : EReal) := by
  rw [val_main_call0_v1_apply, coe_sum]
  have e : ∀ j : Fin 128, val_main_call0_v0 (F := Ideal) x2 (idx_main_call0_v1 (ix1 k) j) = ((cr k j * cr k j : ℝ) : EReal) := fun j => by
    have ei : idx_main_call0_v1 (ix1 k) j = ix2 k j := funext fun a => Fin.ext (by match a with | ⟨0, _⟩ => rfl | ⟨1, _⟩ => rfl)
    rw [val_main_call0_v0_apply, ei, hc]
    exact (EReal.coe_mul _ _).symm
  rw [Finset.sum_congr rfl fun j _ => e j]
  show Ideal.ofBits .f32 0x00000000#32 + _ = _
  rw [Ideal.ofBits_zero_f32, zero_add]

include hc in

theorem den_at (k : Fin 90) : val_main_v2 (F := Ideal) x2 (ix2 k (0 : Fin 1)) = ((den cr k : ℝ) : EReal) := by
  have ei : idx_main_call0_v2 (ix2 k (0 : Fin 1)) = ix1 k := funext fun a => Fin.ext (by match a with | ⟨0, _⟩ => rfl)
  have hs : (0 : ℝ) ≤ ∑ j : Fin 128, cr k j * cr k j := Finset.sum_nonneg fun j _ => mul_self_nonneg _
  have e0 : val_main_v0 (F := Ideal) x2 (ix2 k (0 : Fin 1)) = ((Real.sqrt (∑ j : Fin 128, cr k j * cr k j) : ℝ) : EReal) := by
    rw [val_main_v0_apply, val_main_call0_v2_apply, ei, sumsq_at x2 cr hc k]
    rw [Ideal.hostUnary_sqrt_def, Ideal.sqrt_coe, if_neg (not_lt.2 hs)]
  have e1 : val_main_v1 (F := Ideal) (ix2 k (0 : Fin 1)) = ((epsR : ℝ) : EReal) := by
    rw [val_main_v1_apply, val_main_cst_apply]
    exact eps_eq_coe
  rw [val_main_v2_apply, e0, e1]
  exact (EReal.coe_add _ _).symm

include hc in

theorem nc_at (k : Fin 90) (j : Fin 128) :
    val_main_v4 (F := Ideal) x2 (ix2 k j) = ((cr k j / den cr k : ℝ) : EReal) := by
  have ei : idx_main_v3 (ix2 k j) = ix2 k (0 : Fin 1) := funext fun a => Fin.ext (by match a with | ⟨0, _⟩ => rfl | ⟨1, _⟩ => rfl)
  rw [val_main_v4_apply, val_main_v3_apply, ei, den_at x2 cr hc k, hc]
  rw [Ideal.hostDivf_def, Ideal.div_coe (den_pos cr k).ne', ← EReal.coe_mul, mul_one_div]

include hx hc in

theorem cos_at (b : Fin 16384) (k : Fin 90) :
    val_main_v6 (F := Ideal) x0 x2 (ix2 b k) = ((cosv xr cr b k : ℝ) : EReal) := by
  rw [val_main_v6_apply]
  unfold cosv
  rw [coe_sum]
  refine Finset.sum_congr rfl fun q _ => ?_
  have el : lidx_main_v6 (ix2 b k) q = ix2 b q := funext fun a => Fin.ext (by match a with | ⟨0, _⟩ => rfl | ⟨1, _⟩ => rfl)
  have er : idx_main_v5 (ridx_main_v6 (ix2 b k) q) = ix2 k q := funext fun a => Fin.ext (by match a with | ⟨0, _⟩ => rfl | ⟨1, _⟩ => rfl)
  rw [el, hx, val_main_v5_apply, er, nc_at x2 cr hc k q]
  exact (EReal.coe_mul _ _).symm

include hx hc in

theorem dist_at (b : Fin 16384) (k : Fin 90) :
    val_main_v8 (F := Ideal) x0 x2 (ix2 b k) = ((1 - cosv xr cr b k : ℝ) : EReal) := by
  have e7 : val_main_v7 (F := Ideal) (ix2 b k) = ((1 : ℝ) : EReal) := by
    rw [val_main_v7_apply, val_main_cst_0_apply]
    exact one_val
  rw [val_main_v8_apply, e7, cos_at x0 x2 xr cr hx hc b k]
  exact (EReal.coe_sub _ _).symm

include hl in

theorem idx_col0 (b : Fin 16384) : val_main_v22 (F := Ideal) x1 (ix2 b (0 : Fin 2)) = BitVec.ofNat 32 b.val := by
  have hb := b.isLt
  have hne : ¬ IntOp.cmpi .slt (BitVec.ofNat 32 b.val) (0#32) = 1#1 := by
    intro h
    have h' := IntOp.cmpi_slt.1 h
    rw [Predicate.toInt_ofNat_small b.val (by omega), show (0#32 : BitVec 32).toInt = 0 by decide] at h'
    omega
  have e14 : val_main_v14 (F := Ideal) (ix1 b) = BitVec.ofNat 32 b.val := by
    show Scalar.select (IntOp.cmpi .slt (BitVec.ofNat 32 b.val) (0#32)) (val_main_v13 (F := Ideal) (ix1 b)) (BitVec.ofNat 32 b.val)
      = BitVec.ofNat 32 b.val
    exact select_of_ne _ _ _ hne
  have ei : idx_main_v20 (ix2 b (0 : Fin 1)) = ix1 b := funext fun a => Fin.ext (by match a with | ⟨0, _⟩ => rfl)
  unfold val_main_v22
  rw [concatenate_pair_apply_left (1 : Fin S16384x2.rank) (val_main_v20 (F := Ideal)) (val_main_v21 (F := Ideal) x1)
    concatenates_S16384x1_S16384x1_S16384x2_d1 (ix2 b (0 : Fin 2)) rfl (ix2 b (0 : Fin 1))
    (fun a => by match a with | ⟨0, _⟩ => rfl | ⟨1, _⟩ => rfl), val_main_v20_apply, ei]
  exact e14

include hl in

theorem idx_col1 (b : Fin 16384) : val_main_v22 (F := Ideal) x1 (ix2 b (1 : Fin 2)) = x1 (ix1 b) := by
  have hlb := (lb b).isLt
  have hlt : BitVec.toNat (x1 (ix1 b)) < 2 ^ 31 := by rw [hl b]; omega
  have hne : ¬ IntOp.cmpi .slt (x1 (ix1 b)) (0#32) = 1#1 := by
    intro h
    have h' := IntOp.cmpi_slt.1 h
    rw [Predicate.toInt_eq_toNat_of_lt hlt, show (0#32 : BitVec 32).toInt = 0 by decide] at h'
    omega
  have e19 : val_main_v19 (F := Ideal) x1 (ix1 b) = x1 (ix1 b) := by
    show Scalar.select (IntOp.cmpi .slt (x1 (ix1 b)) (0#32)) (val_main_v18 (F := Ideal) x1 (ix1 b)) (x1 (ix1 b)) = x1 (ix1 b)
    exact select_of_ne _ _ _ hne
  have ei : idx_main_v21 (ix2 b (0 : Fin 1)) = ix1 b := funext fun a => Fin.ext (by match a with | ⟨0, _⟩ => rfl)
  unfold val_main_v22
  rw [concatenate_pair_apply_right (1 : Fin S16384x2.rank) (val_main_v20 (F := Ideal)) (val_main_v21 (F := Ideal) x1)
    concatenates_S16384x1_S16384x1_S16384x2_d1 (ix2 b (1 : Fin 2)) rfl rfl (ix2 b (0 : Fin 1))
    (fun a h => by match a, h with | ⟨0, _⟩, _ => rfl | ⟨1, _⟩, h => exact absurd rfl h) rfl, val_main_v21_apply, ei]
  exact e19

include hx hl hc in

theorem pos_at (b : Fin 16384) :
    val_main_v23 (F := Ideal) x0 x1 x2 (ix1 b) = ((1 - cosv xr cr b (lb b) : ℝ) : EReal) := by
  have hb := b.isLt
  have hlb := (lb b).isLt
  have h0 : min (BitVec.toInt (val_main_v22 (F := Ideal) x1 (ix2 b (0 : Fin 2)))).toNat 16383 = b.val := by
    rw [idx_col0 x1 lb hl b, Predicate.toInt_ofNat_small b.val (by omega)]
    omega
  have h1 : min (BitVec.toInt (val_main_v22 (F := Ideal) x1 (ix2 b (1 : Fin 2)))).toNat 89 = (lb b).val := by
    rw [idx_col1 x1 lb hl b, Predicate.toInt_eq_toNat_of_lt (by rw [hl b]; omega), hl b]
    omega
  show val_main_v8 (F := Ideal) x0 x2 (gather_S16384x90_S16384x2_S16384_n_01_n_n_01_1_11.operandIdx (ix1 b) (val_main_v22 (F := Ideal) x1)) = _
  rw [gather_operand (val_main_v22 (F := Ideal) x1) b b (lb b) h0 h1]
  exact dist_at x0 x2 xr cr hx hc b (lb b)

include hx hl hc in

theorem masked_at (b : Fin 16384) (k : Fin 90) :
    val_main_v25 (F := Ideal) x0 x1 x2 (ix2 b k) = if k = lb b then (⊤ : EReal) else ((1 - cosv xr cr b k : ℝ) : EReal) := by
  have hk2 := k.isLt
  have hlb := (lb b).isLt
  have e24 : val_main_v24 (F := Ideal) x1 (ix2 b k) = IntOp.cmpi .eq (x1 (ix1 b)) (BitVec.ofNat 32 k.val) := by
    have e1 : idx_main_call1_v0 (idx_main_call1_v2 (ix2 b k)) = ix1 b := funext fun a => Fin.ext (by match a with | ⟨0, _⟩ => rfl)
    rw [val_main_v24_apply, val_main_call1_v2_apply, val_main_call1_v0_apply, val_main_call1_v3_apply, val_main_call1_v1_apply]
    exact congrArg (fun i => IntOp.cmpi .eq (x1 i) (BitVec.ofNat 32 k.val)) e1
  have etop : val_main_call2_v1 (F := Ideal) (ix2 b k) = (⊤ : EReal) := by
    rw [val_main_call2_v1_apply, val_main_call2_v0_apply, val_main_cst_4_apply]
    exact top_val
  rw [val_main_v25_apply, e24, etop, dist_at x0 x2 xr cr hx hc b k]
  by_cases hk : k = lb b
  · rw [if_pos hk]
    refine select_of_eq _ _ _ (IntOp.cmpi_eq.2 (BitVec.eq_of_toNat_eq ?_))
    rw [hl b, BitVec.toNat_ofNat, hk]
    exact (Nat.mod_eq_of_lt (by omega)).symm
  · rw [if_neg hk]
    refine select_of_ne _ _ _ (fun h => hk ?_)
    have h2 := congrArg BitVec.toNat (IntOp.cmpi_eq.1 h)
    rw [hl b, BitVec.toNat_ofNat, Nat.mod_eq_of_lt (by omega)] at h2
    exact Fin.ext h2.symm

include hx hl hc in

theorem least_at (b : Fin 16384) :
    val_main_v26 (F := Ideal) x0 x1 x2 (ix1 b) = ((1 - best xr cr b (lb b) : ℝ) : EReal) := by
  have hR : S16384x90.Reduces [1] S16384 := by decide
  have hf : ∀ k : Fin 90, val_main_v25 (F := Ideal) x0 x1 x2 (hR.lift (ix1 b) k)
      = if k = lb b then (⊤ : EReal) else ((1 - cosv xr cr b k : ℝ) : EReal) := fun k => by
    have el : hR.lift (ix1 b) k = ix2 b k := funext fun a => Fin.ext (by match a with | ⟨0, _⟩ => rfl | ⟨1, _⟩ => rfl)
    rw [el]
    exact masked_at x0 x1 x2 xr lb cr hx hl hc b k
  unfold val_main_v26
  refine (Host.reduce_eq_fold_single (FloatOps.minimumf (F := Ideal) (φ := .f32)) (val_main_v25 (F := Ideal) x0 x1 x2)
    (val_main_cst_5 (F := Ideal)) reducesTo_S16384x90_S16384_d1 hR h_S_ (ix1 b)).trans ?_
  refine (Finset.fold_congr (fun k _ => hf k)).trans ?_
  show Finset.fold min (Ideal.ofBits .f32 0x7F800000#32)
    (fun k : Fin 90 => if k = lb b then (⊤ : EReal) else ((1 - cosv xr cr b k : ℝ) : EReal)) (Finset.univ : Finset (Fin 90)) = _
  rw [top_val]
  exact fold_min_masked (lb b) (fun k => cosv xr cr b k)

include hx hl hc in

theorem hinge_at (b : Fin 16384) :
    val_main_v30 (F := Ideal) x0 x1 x2 (ix1 b)
      = ((max (1 + best xr cr b (lb b) - cosv xr cr b (lb b)) 0 : ℝ) : EReal) := by
  have e27 : val_main_v27 (F := Ideal) (ix1 b) = ((1 : ℝ) : EReal) := by
    rw [val_main_v27_apply, val_main_cst_6_apply]
    exact one_val
  have ez : val_main_call3_v0 (F := Ideal) (ix1 b) = ((0 : ℝ) : EReal) := by
    rw [val_main_call3_v0_apply, val_main_call3_cst_apply]
    exact zero_val
  rw [val_main_v30_apply, val_main_v29_apply, val_main_v28_apply, pos_at x0 x1 x2 xr lb cr hx hl hc b, e27,
    least_at x0 x1 x2 xr lb cr hx hl hc b, ez]
  show max ((((1 - cosv xr cr b (lb b) : ℝ) : EReal) + ((1 : ℝ) : EReal)) - ((1 - best xr cr b (lb b) : ℝ) : EReal)) ((0 : ℝ) : EReal) = _
  rw [← EReal.coe_add, ← EReal.coe_sub, ← coe_max,
    show ((1 - cosv xr cr b (lb b) + 1) - (1 - best xr cr b (lb b)) : ℝ) = 1 + best xr cr b (lb b) - cosv xr cr b (lb b) by ring]

include hx hl hc in

theorem total_at :
    val_main_v31 (F := Ideal) x0 x1 x2 ix0
      = ((∑ b : Fin 16384, max (1 + best xr cr b (lb b) - cosv xr cr b (lb b)) 0 : ℝ) : EReal) := by
  rw [val_main_v31_apply, coe_sum]
  show Ideal.ofBits .f32 0x00000000#32 + _ = _
  rw [Ideal.ofBits_zero_f32, zero_add]
  exact (Fintype.sum_equiv (idxEquiv1 (n := 16384)).symm _ _
    (fun b => (hinge_at x0 x1 x2 xr lb cr hx hl hc b).symm)).symm

include hx hl hc in

/-- Stage by stage the reference computes the specification's real loss. -/
theorem ref_value : val_main_v32 (F := Ideal) x0 x1 x2 = fun _ => ((lossR xr lb cr : ℝ) : EReal) := by
  funext i
  obtain rfl : i = ix0 := funext fun a => a.elim0
  have e8 : val_main_cst_8 (F := Ideal) ix0 = ((16384 : ℝ) : EReal) := by
    rw [val_main_cst_8_apply]
    exact k16384_val
  rw [val_main_v32_apply, total_at x0 x1 x2 xr lb cr hx hl hc, e8]
  rw [Ideal.hostDivf_def, Ideal.div_coe (by norm_num : (16384 : ℝ) ≠ 0), ← EReal.coe_mul, mul_one_div]
  rfl

include hx hl hc in

theorem ref_is_spec : val_main_v32 (F := Ideal) x0 x1 x2 = fun _ => Cert.Spec.loss x0 x1 x2 := by
  rw [ref_value x0 x1 x2 xr lb cr hx hl hc, loss_of_real x0 x1 x2 xr lb cr hx hl hc]

end Stages

section Run

variable [Cert.Pre_input_domain.Facts]

theorem ref_is_spec_of_pre (x0 : (⟨S16384x128, .f32⟩ : BufTy).Contents (Elt Ideal)) (x1 : (⟨S16384, .i32⟩ : BufTy).Contents (Elt Ideal))
    (x2 : (⟨S90x128, .f32⟩ : BufTy).Contents (Elt Ideal))
    (h : Cert.Pre_input_domain.fn (F := Ideal) x0 x1 x2 = fun _ => 1#1) :
    val_main_v32 (F := Ideal) x0 x1 x2 = fun _ => Cert.Spec.loss x0 x1 x2 := by
  obtain ⟨xr, lb, cr, hx, hl, hc⟩ := Cert.PreFacts.witnesses x0 x1 x2 h
  exact ref_is_spec x0 x1 x2 xr lb cr hx hl hc

theorem run (m : (ℓ : Loc nD τ sig) → Buf (Elt Ideal) ℓ) (ρ : Dev nD → PrngReg)
    (hP : ∀ c : Dev nD, Cert.Pre_input_domain.fn (F := Ideal) (m ((c.tc : Thread nD τ).loc main_arg0))
      (m ((c.tc : Thread nD τ).loc main_arg1)) (m ((c.tc : Thread nD τ).loc main_arg2)) = fun _ => 1#1) :
    θ_run (defs (F := Ideal)) (onTc (τ := τ) (main (F := Ideal))) ⟨m, fun _ => 0, ρ⟩ fun r => ∀ c : Dev nD,
      r.2.mem ((c.tc : Thread nD τ).loc main_v32)
        = (fun _ : S_.Idx => Cert.Spec.loss (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((val_main_v32_eq (F := Ideal) _ _ _).trans (ref_is_spec_of_pre _ _ _ (hP c))), (h c).2⟩)
    (Cert.ReferenceIdeal.Value.run (F := Ideal) m ρ)

end Run

end Cert.RefValue

end
-- ==== Proof.Claims.lean ====
import proofs.«217715_g15917148799621_cont_week2b_1297_29_alg».proof.Defs
import proofs.«217715_g15917148799621_cont_week2b_1297_29_alg».proof.Proof.Main
import proofs.«217715_g15917148799621_cont_week2b_1297_29_alg».proof.Proof.Tile
import proofs.«217715_g15917148799621_cont_week2b_1297_29_alg».proof.Proof.Split
import proofs.«217715_g15917148799621_cont_week2b_1297_29_alg».proof.Proof.Elem
import proofs.«217715_g15917148799621_cont_week2b_1297_29_alg».proof.Proof.Spec
import proofs.«217715_g15917148799621_cont_week2b_1297_29_alg».proof.Proof.PreFacts
import proofs.«217715_g15917148799621_cont_week2b_1297_29_alg».proof.Proof.RefValue

noncomputable section

namespace Cert.KernelIdeal.Claims

open Cert.KernelIdeal Cert.KernelIdeal.Gen Cert.KernelIdeal.Setup Cert.KernelIdeal.Regs Cert.KernelIdeal.Main

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev ov : (d : Dev nD) → Buf (Elt F) (oLoc d) := Tile.scOut m

def fq (d : Dev nD) (s' : Phys nD τ sig (Elt F)) : Prop :=
  ∀ b ∈ Pipeline.ucRefs τ sig, s'.mem.mem ((d, b) : Loc nD τ sig) = W6 m (ov m) d b

theorem hfin (d : Dev nD) (s' : Phys nD τ sig (Elt F)) : iprop(FINh m (ov m) d ∗ SI s') ⊢ (⌜fq m d s'⌝ : sProp 𝕄) := by
  unfold FINh held
  exact (pointsTo_read_all (Pipeline.ucRefs τ sig) (fun b => ((d, b) : Loc nD τ sig)) (W6 m (ov m) d) s').trans sep_elim_left

def QC : PUnit × MemSt nD τ sig (Elt F) → Prop := fun r => ∀ c : Dev nD,
  r.2.mem ((c.tc : Thread nD τ).loc main_v5) = W6 m (ov m) c r5'
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem hQ (s' : Phys nD τ sig (Elt F)) (h : ∀ d, fq m d s') : QC m (⟨⟩, s'.mem) := fun c =>
  ⟨h c _ (mem_uc main_v5 (by decide)),
   (h c _ (mem_uc main_arg0 (by decide))).trans
     (W6_arg m (ov m) c main_arg0 (by decide) (by decide) (by decide) (by decide) (by decide) (by decide) (by decide)),
   (h c _ (mem_uc main_arg1 (by decide))).trans
     (W6_arg m (ov m) c main_arg1 (by decide) (by decide) (by decide) (by decide) (by decide) (by decide) (by decide)),
   (h c _ (mem_uc main_arg2 (by decide))).trans
     (W6_arg m (ov m) c main_arg2 (by decide) (by decide) (by decide) (by decide) (by decide) (by decide) (by decide))⟩

/-- The launch of all threads from the tile's task, the split, the main thread and the initial ghost state. -/
theorem run_main [∀ e, Nonempty (Elt F e)] (hpre : Tile.LabOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (ov m)) facts v₀
    (fun q hq => match q with | 0 => nomatch hq)
    (fun q _ => match q with | 0 => Tile.tileObl m facts hpre)
    (fun q _ => match q with | 0 => SparseCore.Cfg.VecSplit.of_plain (Split.vecSplit m (ov m)))
    m ρ main (fun d => Elem.G (F := F) d) (FINh m (ov m)) (Elem.u₀ (F := F)) (sep_elim_left.trans (Elem.hu₀ m (ov m)))
    (hmain m ρ (ov m)) (fq m) (hfin m) (QC m) (hQ m)

end Cert.KernelIdeal.Claims

end
-- ==== Proof.R0Value.lean ====
import proofs.«217715_g15917148799621_cont_week2b_1297_29_alg».proof.Proof.Gen.KernelIdeal.Launch
import proofs.«217715_g15917148799621_cont_week2b_1297_29_alg».proof.Proof.Gen.KernelIdeal.Skeleton
import proofs.«217715_g15917148799621_cont_week2b_1297_29_alg».proof.Proof.Gen.KernelIdeal.Points
import proofs.«217715_g15917148799621_cont_week2b_1297_29_alg».proof.Proof.R0Body
import Idealize.ShloMosaic.Lib.Pipeline.Value
import Idealize.ShloMosaic.Lib.Pipeline.FrameBody
import Idealize.ShloMosaic.Lib.SparseCore.Cells
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable {U : Type} [URA U]

local notation "𝕄" => MT nD τ sig (SparseCore.Cfg.HIx 1) (Elt F) ℕ U ℕ

variable (V : (c : Dev nD) → (b : Ref sig .tc) → Buf (Elt F) ((c : Thread nD τ).loc b))
variable (O : CellTallies nD τ sig (SparseCore.Cfg.HIx 1))
variable (B : Set (SemLoc sig × SparseCore.Cfg.HIx 1))

theorem idx0_9 : ∀ (t : Fin cfg0.N) (a : Fin 2), win0_9.index t a = 0 :=
  (by decide +kernel : ∀ (t : Fin grid0.N) (a : Fin 2), win0_9.index t a = 0)
theorem idx0_10 : ∀ (t : Fin cfg0.N) (a : Fin 3), win0_10.index t a = 0 :=
  (by decide +kernel : ∀ (t : Fin grid0.N) (a : Fin 3), win0_10.index t a = 0)

theorem read_blk0_9 (t : Fin cfg0.N) (G : S1x1.Idx → Elt F .f32) :
    ((cfg0.win 9).blk t).view.read (Elt F) G = G := by
  funext j
  show G (((cfg0.win 9).blk t).view.emb j) = G j
  congr 1
  funext a; apply Fin.ext
  match a with
  | ⟨0, _⟩ => show win0_9.index t (0 : Fin 2) * 1 + 1 * (j 0).val = (j 0).val; have := idx0_9 t 0; omega
  | ⟨1, _⟩ => show win0_9.index t (1 : Fin 2) * 1 + 1 * (j 1).val = (j 1).val; have := idx0_9 t 1; omega

theorem read_blk0_10 (t : Fin cfg0.N) (G : S2x1x2048.Idx → Elt F .f32) :
    ((cfg0.win 10).blk t).view.read (Elt F) G = G := by
  funext j
  show G (((cfg0.win 10).blk t).view.emb j) = G j
  congr 1
  funext a; apply Fin.ext
  match a with
  | ⟨0, _⟩ => show win0_10.index t (0 : Fin 3) * 2 + 1 * (j 0).val = (j 0).val; have := idx0_10 t 0; omega
  | ⟨1, _⟩ => show win0_10.index t (1 : Fin 3) * 1 + 1 * (j 1).val = (j 1).val; have := idx0_10 t 1; omega
  | ⟨2, _⟩ => show win0_10.index t (2 : Fin 3) * 2048 + 1 * (j 2).val = (j 2).val; have := idx0_10 t 2; omega

theorem mem_blk0_9 (t : Fin cfg0.N) (i : S1x1.Idx) : i ∈ ((cfg0.win 9).blk t).view.set := by
  show i ∈ ((View.whole main_v1_0).slice (win0_9.rect t)).set
  rw [View.set_slice_whole, Rect.mem_set_unit]
  intro a
  match a with
  | ⟨0, _⟩ => show win0_9.index t (0 : Fin 2) * 1 ≤ (i 0).val ∧ (i 0).val < win0_9.index t (0 : Fin 2) * 1 + 1; have := idx0_9 t 0; have hi : (i 0).val < 1 := (i 0).isLt; omega
  | ⟨1, _⟩ => show win0_9.index t (1 : Fin 2) * 1 ≤ (i 1).val ∧ (i 1).val < win0_9.index t (1 : Fin 2) * 1 + 1; have := idx0_9 t 1; have hi : (i 1).val < 1 := (i 1).isLt; omega

theorem mem_blk0_10 (t : Fin cfg0.N) (i : S2x1x2048.Idx) : i ∈ ((cfg0.win 10).blk t).view.set := by
  show i ∈ ((View.whole main_v1_1).slice (win0_10.rect t)).set
  rw [View.set_slice_whole, Rect.mem_set_unit]
  intro a
  match a with
  | ⟨0, _⟩ => show win0_10.index t (0 : Fin 3) * 2 ≤ (i 0).val ∧ (i 0).val < win0_10.index t (0 : Fin 3) * 2 + 2; have := idx0_10 t 0; have hi : (i 0).val < 2 := (i 0).isLt; omega
  | ⟨1, _⟩ => show win0_10.index t (1 : Fin 3) * 1 ≤ (i 1).val ∧ (i 1).val < win0_10.index t (1 : Fin 3) * 1 + 1; have := idx0_10 t 1; have hi : (i 1).val < 1 := (i 1).isLt; omega
  | ⟨2, _⟩ => show win0_10.index t (2 : Fin 3) * 2048 ≤ (i 2).val ∧ (i 2).val < win0_10.index t (2 : Fin 3) * 2048 + 2048; have := idx0_10 t 2; have hi : (i 2).val < 2048 := (i 2).isLt; omega

theorem flush_last {t : Fin cfg0.N} (h : t.val % 2 = 1) : t = t0_1 := by
  apply Fin.ext
  have hN : t.val < 2 := lt_of_lt_of_eq t.isLt (show cfg0.N = 2 from N_0)
  show t.val = 1
  omega

theorem accAt_last (c : Dev nD) :
    accAt V c t0_1.val t0_1.isLt = accB (partAt V c t0_1) (accA (partAt V c t0_0)) := rfl

/-- After both points the accumulator is the first point's part plus the second's. -/
theorem arrAt0_9 (c : Dev nD) :
    (dat0 (U := U) V O B c).arrAt 9 cfg0.N = accB (partAt V c t0_1) (accA (partAt V c t0_0)) := by
  refine (dat0 (U := U) V O B c).arrAt_eq_of_cover 9 _ (fun t hf => ?_)
    (fun i => ⟨t0_1, (flush0_9 t0_1).mpr rfl, mem_blk0_9 t0_1 i⟩)
  obtain rfl := flush_last ((flush0_9 t).mp hf)
  rw [read_blk0_9]
  show (cfg0.win 9).cut (grid0.coords t0_1) ((dat0 (U := U) V O B c).after 9 t0_1) = _
  rw [after0_9, accAt_last]
  rfl

theorem arrAt0_10 (c : Dev nD) :
    (dat0 (U := U) V O B c).arrAt 10 cfg0.N = miAt V c t0_1 := by
  refine (dat0 (U := U) V O B c).arrAt_eq_of_cover 10 _ (fun t hf => ?_)
    (fun i => ⟨t0_1, (flush0_10 t0_1).mpr rfl, mem_blk0_10 t0_1 i⟩)
  obtain rfl := flush_last ((flush0_10 t).mp hf)
  rw [read_blk0_10]
  show (cfg0.win 10).cut (grid0.coords t0_1) ((dat0 (U := U) V O B c).after 10 t0_1) = _
  rw [after0_10]
  rfl

theorem arrAt0_in (c : Dev nD) (w : Fin cfg0.W) (hw : (cfg0.win w).isOut = false) (n : ℕ) :
    (dat0 (U := U) V O B c).arrAt w n = V c (Pipeline.arrRef spec0 w) :=
  ((dat0 (U := U) V O B c).arrAt_in w hw n).trans (A_eq0 V O B c w)

theorem miOf_row0 (xd : Vec F S2048x128 .f32) (cen : Vec F S90x128 .f32) (ld : Vec F S1x1x2048 .i32) (j : S1x1x2048.Idx) :
    miOf xd cen ld (rowLo.emb j) = k0_pay1 (k0_pay20 (k0_pay5 cen) xd ld) j := by

  have hnm : rowLo.emb j ∉ (rowHi : Rect S2x1x2048).set := fun h => by
    have h' := Rect.mem_set_unit.mp h
    have h0 : 1 ≤ 0 + 1 * (j 0).val := (h' 0).1
    have hj : (j 0).val < 1 := (j 0).isLt
    omega
  show View.canon [(⟨rowHi, k0_pay2 (k0_pay4 cen) (k0_pay19 ld)⟩ : View.Piece (Elt F) S2x1x2048 .f32),
      ⟨rowLo, k0_pay1 (k0_pay20 (k0_pay5 cen) xd ld)⟩] (rowLo.emb j) = _
  rw [View.canon_cons_of_not_mem (⟨rowHi, k0_pay2 (k0_pay4 cen) (k0_pay19 ld)⟩ : View.Piece (Elt F) S2x1x2048 .f32) _ hnm]
  exact View.canon_cons_emb rowLo _ _ j

theorem miOf_row1 (xd : Vec F S2048x128 .f32) (cen : Vec F S90x128 .f32) (ld : Vec F S1x1x2048 .i32) (j : S1x1x2048.Idx) :
    miOf xd cen ld (rowHi.emb j) = k0_pay2 (k0_pay4 cen) (k0_pay19 ld) j := by
  unfold miOf
  exact View.canon_cons_emb rowHi _ _ j

end Cert.KernelIdeal.R0

end
-- ==== Proof.Glue.lean ====
import proofs.«217715_g15917148799621_cont_week2b_1297_29_alg».proof.Proof.Spec
import Mathlib.Algebra.BigOperators.Fin
import Mathlib.Algebra.BigOperators.Ring.Finset
import Mathlib.Data.Fintype.BigOperators
import Mathlib.Tactic.Ring
import Mathlib.Tactic.NormNum

noncomputable section

open scoped BigOperators

namespace Cert.KernelIdeal.Glue

open Cert.Spec

def tailRow (r : Fin 512) : Fin 16384 := ⟨15872 + r.val, by omega⟩

def lane (k : Fin 8) (l : Fin 16) : Fin 128 := ⟨16 * k.val + l.val, by omega⟩

theorem tailRow_val (r : Fin 512) : (tailRow r).val = 15872 + r.val := rfl
theorem lane_val (k : Fin 8) (l : Fin 16) : (lane k l).val = 16 * k.val + l.val := rfl

def laneEquiv : Fin 8 × Fin 16 ≃ Fin 128 where
  toFun kl := lane kl.1 kl.2
  invFun j := (⟨j.val / 16, by have := j.isLt; omega⟩, ⟨j.val % 16, by omega⟩)
  left_inv kl := by
    obtain ⟨k, l⟩ := kl
    refine Prod.ext (Fin.ext ?_) (Fin.ext ?_)
    · show (16 * k.val + l.val) / 16 = k.val
      have := l.isLt; omega
    · show (16 * k.val + l.val) % 16 = l.val
      have := l.isLt; omega
  right_inv j := Fin.ext (by
    show 16 * (j.val / 16) + j.val % 16 = j.val
    omega)

theorem sum_lanes (f : Fin 128 → ℝ) : ∑ l : Fin 16, ∑ k : Fin 8, f (lane k l) = ∑ j : Fin 128, f j := by
  rw [Finset.sum_comm]
  exact (Fintype.sum_prod_type' (fun (k : Fin 8) (l : Fin 16) => f (lane k l))).symm.trans
    (Fintype.sum_equiv laneEquiv (fun kl : Fin 8 × Fin 16 => f (lane kl.1 kl.2)) f (fun _ => rfl))

theorem sum_rows (g : Fin 16384 → ℝ) :
    ∑ b : Fin 16384, g b
      = ∑ b ∈ Finset.univ.filter (fun b : Fin 16384 => b.val < 15872), g b + ∑ r : Fin 512, g (tailRow r) := by
  have tail : ∑ r : Fin 512, g (tailRow r)
      = ∑ b ∈ Finset.univ.filter (fun b : Fin 16384 => ¬ b.val < 15872), g b := by
    refine Finset.sum_bij (fun r _ => tailRow r) ?_ ?_ ?_ ?_
    · intro r _
      exact Finset.mem_filter.mpr ⟨Finset.mem_univ _, by show ¬ 15872 + r.val < 15872; omega⟩
    · intro a _ b _ h
      have hv : 15872 + a.val = 15872 + b.val := congrArg Fin.val h
      exact Fin.ext (by omega)
    · intro b hb
      have hge : ¬ b.val < 15872 := (Finset.mem_filter.mp hb).2
      have hlt : b.val < 16384 := b.isLt
      exact ⟨⟨b.val - 15872, by omega⟩, Finset.mem_univ _,
        Fin.ext (by show 15872 + (b.val - 15872) = b.val; omega)⟩
    · intro r _
      rfl
  rw [tail]
  exact (Finset.sum_filter_add_sum_filter_not Finset.univ (fun b : Fin 16384 => b.val < 15872) g).symm

theorem scale_eq : (2 : ℝ) ^ (-14 : ℤ) = 1 / 16384 := by
  rw [zpow_neg, one_div]
  norm_num

theorem own_cos (xr : Fin 16384 → Fin 128 → ℝ) (cr : Fin 90 → Fin 128 → ℝ) (b : Fin 16384) (c : Fin 90)
    (q : Fin 16 → ℝ) (hq : ∀ l, q l = ∑ k : Fin 8, xr b (lane k l) * cr c (lane k l)) :
    (∑ l : Fin 16, q l) * (1 / den cr c) = cosv xr cr b c := by
  have e : ∑ l : Fin 16, q l = ∑ j : Fin 128, xr b j * cr c j :=
    (Finset.sum_congr rfl fun l _ => hq l).trans (sum_lanes (fun j => xr b j * cr c j))
  rw [e, Finset.sum_mul]
  unfold cosv
  exact Finset.sum_congr rfl fun j _ => by ring

/-- A row's own-class cosine is its inner product with the center over the center's norm; the inner product is a sum over sixteen lanes of eight chunks. -/
theorem glue (xr : Fin 16384 → Fin 128 → ℝ) (lb : Fin 16384 → Fin 90) (cr : Fin 90 → Fin 128 → ℝ)
    (part : ℝ) (mrow irow : Fin 512 → ℝ) (p : Fin 512 → Fin 16 → ℝ)
    (hpart : part = ∑ b ∈ Finset.univ.filter (fun b : Fin 16384 => b.val < 15872),
        max (1 + best xr cr b (lb b) - cosv xr cr b (lb b)) 0)
    (hm : ∀ r : Fin 512, mrow r = best xr cr (tailRow r) (lb (tailRow r)))
    (hi : ∀ r : Fin 512, irow r = 1 / den cr (lb (tailRow r)))
    (hp : ∀ (r : Fin 512) (l : Fin 16),
        p r l = ∑ k : Fin 8, xr (tailRow r) (lane k l) * cr (lb (tailRow r)) (lane k l)) :
    (part + ∑ r : Fin 512, max (1 + mrow r - (∑ l : Fin 16, p r l) * irow r) 0) * (2 : ℝ) ^ (-14 : ℤ)
      = lossR xr lb cr := by
  have hrow : ∀ r : Fin 512, max (1 + mrow r - (∑ l : Fin 16, p r l) * irow r) 0
      = max (1 + best xr cr (tailRow r) (lb (tailRow r)) - cosv xr cr (tailRow r) (lb (tailRow r))) 0 := fun r => by
    rw [hm r, hi r, own_cos xr cr (tailRow r) (lb (tailRow r)) (p r) (hp r)]
  unfold lossR
  rw [sum_rows (fun b => max (1 + best xr cr b (lb b) - cosv xr cr b (lb b)) 0), ← hpart, scale_eq,
    Finset.sum_congr rfl (fun r _ => hrow r), mul_one_div]

def blk (base : ℕ) (h : base + 2048 ≤ 16384) (q : Fin 2048) : Fin 16384 := ⟨base + q.val, by have := q.isLt; omega⟩

theorem blk_val (base : ℕ) (h : base + 2048 ≤ 16384) (q : Fin 2048) : (blk base h q).val = base + q.val := rfl

theorem tailRow_eq_blk (r : Fin 512) :
    tailRow r = blk 14336 (by omega) ⟨1536 + r.val, by have := r.isLt; omega⟩ :=
  Fin.ext (by show 15872 + r.val = 14336 + (1536 + r.val); omega)

def rowOf (g : Fin 8) (q : Fin 2048) : Fin 16384 :=
  ⟨2048 * g.val + q.val, by have := g.isLt; have := q.isLt; omega⟩

def rowEquiv : Fin 8 × Fin 2048 ≃ Fin 16384 where
  toFun gq := rowOf gq.1 gq.2
  invFun b := (⟨b.val / 2048, by have := b.isLt; omega⟩, ⟨b.val % 2048, by omega⟩)
  left_inv gq := by
    obtain ⟨g, q⟩ := gq
    refine Prod.ext (Fin.ext ?_) (Fin.ext ?_)
    · show (2048 * g.val + q.val) / 2048 = g.val
      have := q.isLt; omega
    · show (2048 * g.val + q.val) % 2048 = q.val
      have := q.isLt; omega
  right_inv b := Fin.ext (by
    show 2048 * (b.val / 2048) + b.val % 2048 = b.val
    omega)

theorem sum_blocks (F : Fin 16384 → ℝ) : ∑ b : Fin 16384, F b = ∑ g : Fin 8, ∑ q : Fin 2048, F (rowOf g q) :=
  (Fintype.sum_equiv rowEquiv (fun gq : Fin 8 × Fin 2048 => F (rowOf gq.1 gq.2)) F (fun _ => rfl)).symm.trans
    (Fintype.sum_prod_type' (fun (g : Fin 8) (q : Fin 2048) => F (rowOf g q)))

/-- The rows below 15872 are eight blocks of 2048 with the last block cut at 1536; a sum over them regroups by block. -/
theorem regroup (h : Fin 16384 → ℝ) :
    ∑ b ∈ Finset.univ.filter (fun b : Fin 16384 => b.val < 15872), h b
      = ((∑ q : Fin 2048, h (blk 0 (by omega) q)) + (∑ q : Fin 2048, h (blk 4096 (by omega) q))
          + (∑ q : Fin 2048, h (blk 8192 (by omega) q)) + (∑ q : Fin 2048, h (blk 12288 (by omega) q)))
        + ((∑ q : Fin 2048, h (blk 2048 (by omega) q)) + (∑ q : Fin 2048, h (blk 6144 (by omega) q))
          + (∑ q : Fin 2048, h (blk 10240 (by omega) q))
          + (∑ q : Fin 2048, if q.val < 1536 then h (blk 14336 (by omega) q) else 0)) := by
  have full : ∀ (g : Fin 8) (base : ℕ) (hb : base + 2048 ≤ 16384), base = 2048 * g.val → base + 2048 ≤ 15872 →
      ∑ q : Fin 2048, (if (rowOf g q).val < 15872 then h (rowOf g q) else 0)
        = ∑ q : Fin 2048, h (blk base hb q) := by
    intro g base hb hg hle
    refine Finset.sum_congr rfl fun q _ => ?_
    have hq := q.isLt
    have e : rowOf g q = blk base hb q := Fin.ext (by show 2048 * g.val + q.val = base + q.val; omega)
    have hc : (rowOf g q).val < 15872 := by show 2048 * g.val + q.val < 15872; omega
    rw [if_pos hc, e]
  have last : ∑ q : Fin 2048, (if (rowOf 7 q).val < 15872 then h (rowOf 7 q) else 0)
      = ∑ q : Fin 2048, if q.val < 1536 then h (blk 14336 (by omega) q) else 0 := by
    refine Finset.sum_congr rfl fun q _ => ?_
    have h7 : ((7 : Fin 8) : ℕ) = 7 := rfl
    have e : rowOf 7 q = blk 14336 (by omega) q :=
      Fin.ext (by show 2048 * ((7 : Fin 8) : ℕ) + q.val = 14336 + q.val; omega)
    by_cases hq : q.val < 1536
    · have hc : (rowOf 7 q).val < 15872 := by show 2048 * ((7 : Fin 8) : ℕ) + q.val < 15872; omega
      rw [if_pos hq, if_pos hc, e]
    · have hc : ¬ (rowOf 7 q).val < 15872 := by show ¬ 2048 * ((7 : Fin 8) : ℕ) + q.val < 15872; omega
      rw [if_neg hq, if_neg hc]
  rw [Finset.sum_filter]
  refine (sum_blocks _).trans ?_
  rw [Fin.sum_univ_eight,
    full 0 0 (by omega) rfl (by omega), full 1 2048 (by omega) rfl (by omega), full 2 4096 (by omega) rfl (by omega),
    full 3 6144 (by omega) rfl (by omega), full 4 8192 (by omega) rfl (by omega), full 5 10240 (by omega) rfl (by omega),
    full 6 12288 (by omega) rfl (by omega), last]
  ring

end Cert.KernelIdeal.Glue

end
-- ==== Proof.ScIdeal.lean ====
import proofs.«217715_g15917148799621_cont_week2b_1297_29_alg».proof.Proof.Gen.KernelIdeal.Skeleton
import Idealize.ShloMosaic.Lib.ValueIdx
import Idealize.ShloMosaic.Lib.ValueLayout
import Idealize.ShloMosaic.PureOps.Ideal.Laws
import Mathlib.Algebra.BigOperators.Fin
import Mathlib.Tactic.Ring

noncomputable section

open scoped BigOperators

namespace Cert.KernelIdeal.ScIdeal

open Cert.KernelIdeal Cert.KernelIdeal.Gen Idealize.ShloMosaic Idealize.ShloMosaic.ValueIdx

/-- Eight chunk products added into four interleaved partial sums and then joined are the sum over the eight chunks, lane by lane. -/
theorem row0_apply (x0 c0 x1 c1 x2 c2 x3 c3 x4 c4 x5 c5 x6 c6 x7 c7 : Vec Ideal S1x16 .f32) (a b : Fin 8 → Fin 16 → ℝ)
    (hx0 : ∀ l : Fin 16, x0 (ix2 (0 : Fin 1) l) = (a 0 l : EReal)) (hc0 : ∀ l : Fin 16, c0 (ix2 (0 : Fin 1) l) = (b 0 l : EReal))
    (hx1 : ∀ l : Fin 16, x1 (ix2 (0 : Fin 1) l) = (a 1 l : EReal)) (hc1 : ∀ l : Fin 16, c1 (ix2 (0 : Fin 1) l) = (b 1 l : EReal))
    (hx2 : ∀ l : Fin 16, x2 (ix2 (0 : Fin 1) l) = (a 2 l : EReal)) (hc2 : ∀ l : Fin 16, c2 (ix2 (0 : Fin 1) l) = (b 2 l : EReal))
    (hx3 : ∀ l : Fin 16, x3 (ix2 (0 : Fin 1) l) = (a 3 l : EReal)) (hc3 : ∀ l : Fin 16, c3 (ix2 (0 : Fin 1) l) = (b 3 l : EReal))
    (hx4 : ∀ l : Fin 16, x4 (ix2 (0 : Fin 1) l) = (a 4 l : EReal)) (hc4 : ∀ l : Fin 16, c4 (ix2 (0 : Fin 1) l) = (b 4 l : EReal))
    (hx5 : ∀ l : Fin 16, x5 (ix2 (0 : Fin 1) l) = (a 5 l : EReal)) (hc5 : ∀ l : Fin 16, c5 (ix2 (0 : Fin 1) l) = (b 5 l : EReal))
    (hx6 : ∀ l : Fin 16, x6 (ix2 (0 : Fin 1) l) = (a 6 l : EReal)) (hc6 : ∀ l : Fin 16, c6 (ix2 (0 : Fin 1) l) = (b 6 l : EReal))
    (hx7 : ∀ l : Fin 16, x7 (ix2 (0 : Fin 1) l) = (a 7 l : EReal)) (hc7 : ∀ l : Fin 16, c7 (ix2 (0 : Fin 1) l) = (b 7 l : EReal))
    (l : Fin 16) :
    k1_pay7 (F := Ideal) (k1_pay2 x0 c0) (k1_pay3 x1 c1) (k1_pay4 x2 c2) (k1_pay5 x3 c3) (k1_pay6 x4) c4 x5 c5 x6 c6 x7 c7
        (ix2 (0 : Fin 1) l)
      = ((∑ k : Fin 8, a k l * b k l : ℝ) : EReal) := by
  simp only [k1_pay7, k1_pay2, k1_pay3, k1_pay4, k1_pay5, k1_pay6, shapeCast_a_1a_apply, addf_apply, mulf_apply,
    shapeCast_1a_a_apply, broadcast_apply, Ideal.ofBits_def, Ideal.ofBits_zero_f32, zero_add,
    hx0, hc0, hx1, hc1, hx2, hc2, hx3, hc3, hx4, hc4, hx5, hc5, hx6, hc6, hx7, hc7]
  simp only [← EReal.coe_mul, ← EReal.coe_add]
  rw [EReal.coe_eq_coe_iff, Fin.sum_univ_eight]
  ring

theorem row1_apply (x0 c0 x1 c1 x2 c2 x3 c3 x4 c4 x5 c5 x6 c6 x7 c7 : Vec Ideal S1x16 .f32) (a b : Fin 8 → Fin 16 → ℝ)
    (hx0 : ∀ l : Fin 16, x0 (ix2 (0 : Fin 1) l) = (a 0 l : EReal)) (hc0 : ∀ l : Fin 16, c0 (ix2 (0 : Fin 1) l) = (b 0 l : EReal))
    (hx1 : ∀ l : Fin 16, x1 (ix2 (0 : Fin 1) l) = (a 1 l : EReal)) (hc1 : ∀ l : Fin 16, c1 (ix2 (0 : Fin 1) l) = (b 1 l : EReal))
    (hx2 : ∀ l : Fin 16, x2 (ix2 (0 : Fin 1) l) = (a 2 l : EReal)) (hc2 : ∀ l : Fin 16, c2 (ix2 (0 : Fin 1) l) = (b 2 l : EReal))
    (hx3 : ∀ l : Fin 16, x3 (ix2 (0 : Fin 1) l) = (a 3 l : EReal)) (hc3 : ∀ l : Fin 16, c3 (ix2 (0 : Fin 1) l) = (b 3 l : EReal))
    (hx4 : ∀ l : Fin 16, x4 (ix2 (0 : Fin 1) l) = (a 4 l : EReal)) (hc4 : ∀ l : Fin 16, c4 (ix2 (0 : Fin 1) l) = (b 4 l : EReal))
    (hx5 : ∀ l : Fin 16, x5 (ix2 (0 : Fin 1) l) = (a 5 l : EReal)) (hc5 : ∀ l : Fin 16, c5 (ix2 (0 : Fin 1) l) = (b 5 l : EReal))
    (hx6 : ∀ l : Fin 16, x6 (ix2 (0 : Fin 1) l) = (a 6 l : EReal)) (hc6 : ∀ l : Fin 16, c6 (ix2 (0 : Fin 1) l) = (b 6 l : EReal))
    (hx7 : ∀ l : Fin 16, x7 (ix2 (0 : Fin 1) l) = (a 7 l : EReal)) (hc7 : ∀ l : Fin 16, c7 (ix2 (0 : Fin 1) l) = (b 7 l : EReal))
    (l : Fin 16) :
    k1_pay1 (F := Ideal) (k1_pay13 (k1_pay10 (F := Ideal)) x2 c2) (k1_pay14 (k1_pay11 (F := Ideal)) x3 c3)
        (k1_pay15 (k1_pay8 (F := Ideal)) (k1_pay12 x0) c0 x4 c4) (k1_pay16 (k1_pay9 (F := Ideal)) x1 c1 x5 c5)
        (k1_pay17 x6) c6 x7 c7 (ix2 (0 : Fin 1) l)
      = ((∑ k : Fin 8, a k l * b k l : ℝ) : EReal) := by
  simp only [k1_pay1, k1_pay8, k1_pay9, k1_pay10, k1_pay11, k1_pay12, k1_pay13, k1_pay14, k1_pay15, k1_pay16, k1_pay17,
    shapeCast_a_1a_apply, addf_apply, mulf_apply, shapeCast_1a_a_apply, broadcast_apply, Ideal.ofBits_def,
    Ideal.ofBits_zero_f32, zero_add,
    hx0, hc0, hx1, hc1, hx2, hc2, hx3, hc3, hx4, hc4, hx5, hc5, hx6, hc6, hx7, hc7]
  simp only [← EReal.coe_mul, ← EReal.coe_add]
  rw [EReal.coe_eq_coe_iff, Fin.sum_univ_eight]
  ring

end Cert.KernelIdeal.ScIdeal

end
-- ==== Proof.R0Ideal.lean ====
import proofs.«217715_g15917148799621_cont_week2b_1297_29_alg».proof.Proof.Gen.KernelIdeal.Skeleton
import proofs.«217715_g15917148799621_cont_week2b_1297_29_alg».proof.Proof.Spec
import Idealize.ShloMosaic.PureOps.Ideal.Laws
import Idealize.ShloMosaic.Lib.ValueIdx
import Idealize.ShloMosaic.Lib.ValueLayout
import Mathlib.Data.Finset.Fold
import Mathlib.Data.Finset.Lattice.Fold
import Mathlib.Algebra.BigOperators.Group.Finset.Piecewise

noncomputable section

open scoped BigOperators

namespace Cert.KernelIdeal.R0Ideal

open Idealize.ShloMosaic Idealize.ShloMosaic.ValueIdx Cert.KernelIdeal.Gen Cert.Spec

theorem fold_max_others (l : Fin 90) (c : Fin 90 → ℝ) :
    (Finset.univ : Finset (Fin 90)).fold max (⊥ : EReal) (fun k => if k = l then (⊥ : EReal) else ((c k : ℝ) : EReal))
      = (((Finset.univ.filter fun k : Fin 90 => k ≠ l).sup' (others_nonempty l) c : ℝ) : EReal) := by
  apply le_antisymm
  · rw [Finset.fold_max_le]
    refine ⟨bot_le, fun k _ => ?_⟩
    by_cases h : k = l
    · rw [if_pos h]; exact bot_le
    · rw [if_neg h]
      exact EReal.coe_le_coe_iff.mpr (Finset.le_sup' c (Finset.mem_filter.mpr ⟨Finset.mem_univ k, h⟩))
  · obtain ⟨k, hk, e⟩ := Finset.exists_mem_eq_sup' (others_nonempty l) c
    rw [e, Finset.le_fold_max]
    refine Or.inr ⟨k, Finset.mem_univ k, le_of_eq ?_⟩
    rw [if_neg (Finset.mem_filter.mp hk).2]

theorem sum_own (l : Fin 90) (c : Fin 90 → EReal) : (∑ k : Fin 90, if k = l then c k else 0) = c l := by
  rw [Finset.sum_ite_eq' Finset.univ l c, if_pos (Finset.mem_univ l)]

theorem bits_neg_inf : Ideal.ofBits .f32 0xFF800000#32 = (⊥ : EReal) := by simp [Ideal.ofBits, Ideal.ieee]

theorem neg_big : Named.named (F := Ideal) κ "neg_big" (φ := .f32) 0xF149F2CA#32 = (⊥ : EReal) :=
  IdealRules.named_const.ideal_named_scalar _ _ _ _ rfl

theorem bits_eps : Ideal.ofBits .f32 0x2B8CBCCC#32 = ((epsR : ℝ) : EReal) := eps_eq_coe

theorem cmpi_eq_label (k : Fin 90) (w : BitVec 32) (l : Fin 90) (hw : w.toNat = l.val) :
    IntOp.cmpi .eq (BitVec.ofNat 32 k.val) w = if k = l then 1#1 else 0#1 := by
  have hk : (BitVec.ofNat 32 k.val).toNat = k.val := by
    rw [BitVec.toNat_ofNat]; exact Nat.mod_eq_of_lt (by have := k.isLt; omega)
  show BitVec.ofBool (BitVec.ofNat 32 k.val == w) = _
  by_cases h : k = l
  · have e : BitVec.ofNat 32 k.val = w := BitVec.eq_of_toNat_eq (by rw [hk, hw, h])
    rw [if_pos h, e]
    exact (congrArg BitVec.ofBool (beq_self_eq_true w)).trans rfl
  · have e : BitVec.ofNat 32 k.val ≠ w := fun e => h (Fin.ext (by rw [← hk, e, hw]))
    rw [if_neg h]
    exact (congrArg BitVec.ofBool (beq_eq_false_iff_ne.mpr e)).trans rfl

theorem slt_1536 (q : Fin 2048) : (BitVec.ofNat 32 q.val).slt 1536#32 = decide (q.val < 1536) := by
  have hq := q.isLt
  have hp : (2 : ℕ) ^ 32 = 4294967296 := by norm_num
  have h1 : (BitVec.ofNat 32 q.val).toNat = q.val := by
    rw [BitVec.toNat_ofNat]; exact Nat.mod_eq_of_lt (by omega)
  have h2 : (BitVec.ofNat 32 q.val).toInt = (q.val : Int) := by
    rw [BitVec.toInt_eq_toNat_cond, h1, if_pos (by omega)]
  have h3 : (1536#32 : BitVec 32).toInt = 1536 := by decide
  unfold BitVec.slt
  rw [h2, h3]
  exact decide_eq_decide.mpr ⟨fun h => by omega, fun h => by omega⟩

theorem sel_grid {α : Type} (g : ℕ) (hg : g < 2) (A B : α) :
    Scalar.select (Scalar.cmpi .slt (BitVec.ofNat 32 g) 1#32) A B = if g = 0 then A else B := by
  have h0 : Scalar.cmpi .slt (BitVec.ofNat 32 0) 1#32 = 1#1 := by decide
  have h1 : Scalar.cmpi .slt (BitVec.ofNat 32 1) 1#32 = 0#1 := by decide
  interval_cases g
  · rw [h0, if_pos rfl]; exact select_one A B
  · rw [h1, if_neg Nat.one_ne_zero]; exact select_zero A B

section Layout
variable {α : Type}

theorem cmpi_apply {s : Shape} {w : ℕ} (p : CmpIPredicate) (x y : IVec s w) (i : s.Idx) :
    cmpi p x y i = IntOp.cmpi p (x i) (y i) := rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp only [Nat.zero_mul, Nat.zero_add])

theorem extractAt_00 (x : (⟨2, ![1, 1]⟩ : Shape).Idx → α)
    (h : ∀ a, (![0, 0] : Fin 2 → ℕ) a < (⟨2, ![1, 1]⟩ : Shape).size a) :
    extractAt ![0, 0] x h = x (ix2 (0 : Fin 1) (0 : Fin 1)) := by
  show x (fun a => ⟨(![0, 0] : Fin 2 → ℕ) a, h a⟩) = _
  refine congrArg x (funext fun a => Fin.ext ?_)
  match a with
  | ⟨0, _⟩ => rfl
  | ⟨1, _⟩ => rfl

end Layout

theorem lift_axis0 {a b : ℕ} (h : (⟨2, ![a, b]⟩ : Shape).Reduces [0] ⟨1, ![b]⟩) (q : Fin b) (k : Fin a) :
    h.lift (ix1 q) k = ix2 k q := by
  funext c
  apply Fin.ext
  match c with
  | ⟨0, _⟩ => rfl
  | ⟨1, _⟩ => rfl

theorem lift_axis1 {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

theorem sum_rows_apply {a b : ℕ} (src : FVec Ideal ⟨2, ![a, b]⟩ .f32) (h : (⟨2, ![a, b]⟩ : Shape).Reduces [0] ⟨1, ![b]⟩)
    (q : Fin b) :
    multiReduction .add [0] ⟨1, ![b]⟩ src 0x00000000#32 h (.inl rfl) rfl (ix1 q) = ∑ k : Fin a, src (ix2 k q) :=
  (Ideal.multiReduction_add_single src _ h _ _ (ix1 q)).trans
    (Finset.sum_congr rfl fun k _ => congrArg src (lift_axis0 h q k))

theorem sum_cols_apply {a b : ℕ} (src : FVec Ideal ⟨2, ![a, b]⟩ .f32) (h : (⟨2, ![a, b]⟩ : Shape).Reduces [1] ⟨1, ![a]⟩)
    (p : Fin a) :
    multiReduction .add [1] ⟨1, ![a]⟩ src 0x00000000#32 h (.inl rfl) rfl (ix1 p) = ∑ k : Fin b, src (ix2 p k) :=
  (Ideal.multiReduction_add_single src _ h _ _ (ix1 p)).trans
    (Finset.sum_congr rfl fun k _ => congrArg src (lift_axis1 h p k))

theorem max_rows_apply {a b : ℕ} (src : FVec Ideal ⟨2, ![a, b]⟩ .f32) (h : (⟨2, ![a, b]⟩ : Shape).Reduces [0] ⟨1, ![b]⟩)
    (q : Fin b) :
    multiReduction .maximumf [0] ⟨1, ![b]⟩ src 0xFF800000#32 h (.inl rfl) rfl (ix1 q)
      = (Finset.univ : Finset (Fin a)).fold max (⊥ : EReal) (fun k => src (ix2 k q)) :=
  (Ideal.multiReduction_maximumf_single src _ h _ _ (ix1 q)).trans
    (congrArg₂ (fun (z : EReal) (f : Fin a → EReal) => (Finset.univ : Finset (Fin a)).fold max z f) bits_neg_inf
      (funext fun k => congrArg src (lift_axis0 h q k)))

abbrev row (base : ℕ) (h : base + 2048 ≤ 16384) (q : Fin 2048) : Fin 16384 :=
  ⟨base + q.val, by have := q.isLt; omega⟩

abbrev hinge (xr : Fin 16384 → Fin 128 → ℝ) (lb : Fin 16384 → Fin 90) (cr : Fin 90 → Fin 128 → ℝ) (b : Fin 16384) : ℝ :=
  max (1 + best xr cr b (lb b) - cosv xr cr b (lb b)) 0

abbrev CenIs (cr : Fin 90 → Fin 128 → ℝ) (cen : FVec Ideal S90x128 .f32) : Prop :=
  ∀ (k : Fin 90) (j : Fin 128), cen (ix2 k j) = ((cr k j : ℝ) : EReal)

abbrev NcIs (cr : Fin 90 → Fin 128 → ℝ) (nc : FVec Ideal S90x128 .f32) : Prop :=
  ∀ (k : Fin 90) (j : Fin 128), nc (ix2 k j) = ((cr k j / den cr k : ℝ) : EReal)

abbrev XIs (xr : Fin 16384 → Fin 128 → ℝ) (r : Fin 2048 → Fin 16384) (xb : FVec Ideal S2048x128 .f32) : Prop :=
  ∀ (q : Fin 2048) (j : Fin 128), xb (ix2 q j) = ((xr (r q) j : ℝ) : EReal)

abbrev LabIs (lb : Fin 16384 → Fin 90) (r : Fin 2048 → Fin 16384) (l3 : IVec S1x1x2048 32) : Prop :=
  ∀ q : Fin 2048, (l3 (ix3 (0 : Fin 1) (0 : Fin 1) q)).toNat = (lb (r q)).val

variable {xr : Fin 16384 → Fin 128 → ℝ} {cr : Fin 90 → Fin 128 → ℝ} {lb : Fin 16384 → Fin 90}
variable {r ra rb rc rd : Fin 2048 → Fin 16384}
variable {cen nc : FVec Ideal S90x128 .f32} {xb xa xc xd : FVec Ideal S2048x128 .f32}
variable {l3 la lbk lc ld : IVec S1x1x2048 32}

theorem sum_sq (hc : CenIs cr cen) (k : Fin 90) :
    (∑ j : Fin 128, mulf cen cen (ix2 k j)) = ((∑ j : Fin 128, cr k j * cr k j : ℝ) : EReal) := by
  rw [coe_sum]
  exact Finset.sum_congr rfl fun j _ => by rw [mulf_apply, hc k j, EReal.coe_mul]

theorem pay4_apply (hc : CenIs cr cen) (k : Fin 90) (u : Fin 1) :
    k0_pay4 (F := Ideal) cen (ix2 k u) = ((1 / den cr k : ℝ) : EReal) := by
  unfold k0_pay4
  show Ideal.div (Ideal.ofBits .f32 0x3F800000#32)
      (Ideal.sqrt (shapeCast S90x1 (multiReduction .add [1] S90 (mulf cen cen) 0x00000000#32 _ (.inl rfl) rfl) _ (ix2 k u))
        + Ideal.ofBits .f32 0x2B8CBCCC#32) = _
  rw [shapeCast_a_a1_apply, sum_cols_apply, sum_sq hc k, Ideal.sqrt_coe,
    if_neg (not_lt.mpr (Finset.sum_nonneg fun j _ => mul_self_nonneg (cr k j))), bits_eps, ← EReal.coe_add, one_val]
  show Ideal.div ((1 : ℝ) : EReal) ((den cr k : ℝ) : EReal) = _
  rw [Ideal.div_coe (den_pos cr k).ne', ← EReal.coe_mul, one_mul]

theorem pay5_apply (hc : CenIs cr cen) (k : Fin 90) (j : Fin 128) :
    k0_pay5 (F := Ideal) cen (ix2 k j) = ((cr k j / den cr k : ℝ) : EReal) := by
  unfold k0_pay5
  show cen (ix2 k j) * broadcastTo S90x128 (k0_pay4 (F := Ideal) cen) _ (ix2 k j) = _
  rw [broadcastTo_a1_ab_apply _ _ k j (0 : Fin 1), pay4_apply hc k 0, hc k j, ← EReal.coe_mul, mul_one_div]

theorem pay5_ncIs (hc : CenIs cr cen) : NcIs cr (k0_pay5 (F := Ideal) cen) := fun k j => pay5_apply hc k j

theorem lhs_0 (i : S90x2048.Idx) (c : dot_S90x128_S2048x128_S90x2048_1_1_0_0_n_n.contr.Idx) :
    (dot_S90x128_S2048x128_S90x2048_1_1_0_0_n_n.lhsIdx i c 0).val = (i 0).val := by
  unfold DotDims.lhsIdx
  rw [dif_neg (show ¬(0 : Fin S90x128.rank) ∈ dot_S90x128_S2048x128_S90x2048_1_1_0_0_n_n.lhsBatch by decide), dif_pos (show (0 : Fin S90x128.rank) ∈ dot_S90x128_S2048x128_S90x2048_1_1_0_0_n_n.lhsNonContracting by decide)]
  rfl
theorem lhs_1 (i : S90x2048.Idx) (c : dot_S90x128_S2048x128_S90x2048_1_1_0_0_n_n.contr.Idx) :
    (dot_S90x128_S2048x128_S90x2048_1_1_0_0_n_n.lhsIdx i c 1).val = (c ⟨0, by decide⟩).val :=
  dot_S90x128_S2048x128_S90x2048_1_1_0_0_n_n.lhsIdx_val_of_single rfl i c
theorem rhs_0 (i : S90x2048.Idx) (c : dot_S90x128_S2048x128_S90x2048_1_1_0_0_n_n.contr.Idx) :
    (dot_S90x128_S2048x128_S90x2048_1_1_0_0_n_n.rhsIdx i c 0).val = (i 1).val := by
  unfold DotDims.rhsIdx
  rw [dif_neg (show ¬(0 : Fin S2048x128.rank) ∈ dot_S90x128_S2048x128_S90x2048_1_1_0_0_n_n.rhsBatch by decide), dif_pos (show (0 : Fin S2048x128.rank) ∈ dot_S90x128_S2048x128_S90x2048_1_1_0_0_n_n.rhsNonContracting by decide)]
  rfl
theorem rhs_1 (i : S90x2048.Idx) (c : dot_S90x128_S2048x128_S90x2048_1_1_0_0_n_n.contr.Idx) :
    (dot_S90x128_S2048x128_S90x2048_1_1_0_0_n_n.rhsIdx i c 1).val = (c ⟨0, by decide⟩).val :=
  dot_S90x128_S2048x128_S90x2048_1_1_0_0_n_n.rhsIdx_val_of_single rfl i c

theorem prod_apply (hn : NcIs cr nc) (hx : XIs xr r xb) (k : Fin 90) (q : Fin 2048) :
    matmul dot_S90x128_S2048x128_S90x2048_1_1_0_0_n_n none nc xb (constant (F := Ideal) S90x2048 .f32 0x00000000#32) (ix2 k q)
      = ((cosv xr cr (r q) k : ℝ) : EReal) := by
  simp only [matmul]
  rw [Ideal.matmul_constant_zero_apply, ← Equiv.sum_comp (contrEquiv1 dot_S90x128_S2048x128_S90x2048_1_1_0_0_n_n 128 rfl rfl).symm]
  unfold cosv
  rw [coe_sum]
  refine Finset.sum_congr rfl fun c _ => ?_
  have hk := contrEquiv1_symm_val dot_S90x128_S2048x128_S90x2048_1_1_0_0_n_n 128 rfl rfl c
  have el : dot_S90x128_S2048x128_S90x2048_1_1_0_0_n_n.lhsIdx (ix2 k q) ((contrEquiv1 dot_S90x128_S2048x128_S90x2048_1_1_0_0_n_n 128 rfl rfl).symm c) = ix2 k c := funext fun a => Fin.ext (by
    match a with
    | ⟨0, _⟩ => exact lhs_0 _ _
    | ⟨1, _⟩ => exact (lhs_1 _ _).trans hk)
  have er : dot_S90x128_S2048x128_S90x2048_1_1_0_0_n_n.rhsIdx (ix2 k q) ((contrEquiv1 dot_S90x128_S2048x128_S90x2048_1_1_0_0_n_n 128 rfl rfl).symm c) = ix2 q c := funext fun a => Fin.ext (by
    match a with
    | ⟨0, _⟩ => exact rhs_0 _ _
    | ⟨1, _⟩ => exact (rhs_1 _ _).trans hk)
  rw [el, er, hn k c, hx q c, ← EReal.coe_mul, mul_comm]

theorem mask_apply (hl : LabIs lb r l3) (h1 : S90x2048.Iotas .tc 32 [0]) (h2 : S1x1x2048.ShapeCasts S2048)
    (h3 : S2048.ShapeCasts S1x2048) (h4 : S1x2048.Broadcasts S90x2048) (k : Fin 90) (q : Fin 2048) :
    cmpi .eq (iota .tc S90x2048 32 [0] h1) (broadcastTo S90x2048 (shapeCast S1x2048 (shapeCast S2048 l3 h2) h3) h4) (ix2 k q)
      = if k = lb (r q) then 1#1 else 0#1 := by
  rw [cmpi_apply, iota_single_apply, broadcastTo_1b_ab_apply, shapeCast_a_1a_apply, shapeCast_11a_a_apply]
  exact cmpi_eq_label k _ _ (hl q)

/-- With the own class masked to minus infinity, the column maximum is the maximum over the other classes. -/
theorem colmax_apply (M : IVec S90x2048 1) (P : FVec Ideal S90x2048 .f32) (l : Fin 90) (c : Fin 90 → ℝ) (q : Fin 2048)
    (hM : ∀ k : Fin 90, M (ix2 k q) = if k = l then 1#1 else 0#1) (hP : ∀ k : Fin 90, P (ix2 k q) = ((c k : ℝ) : EReal))
    (h : S90x2048.Reduces [0] S2048) :
    multiReduction .maximumf [0] S2048
        (select M (broadcast S90x2048 (Named.named (F := Ideal) κ "neg_big" (φ := .f32) 0xF149F2CA#32)) P)
        0xFF800000#32 h (.inl rfl) rfl (ix1 q)
      = (((Finset.univ.filter fun k : Fin 90 => k ≠ l).sup' (others_nonempty l) c : ℝ) : EReal) := by
  refine (max_rows_apply _ h q).trans ?_
  refine (Finset.fold_congr fun k _ => ?_).trans (fold_max_others l c)
  rw [select_apply, hM k, broadcast_apply, neg_big, hP k]
  by_cases hk : k = l
  · rw [if_pos hk, if_pos hk, select_one]
  · rw [if_neg hk, if_neg hk, select_zero]

theorem ownsum_apply (M : IVec S90x2048 1) (P : FVec Ideal S90x2048 .f32) (l : Fin 90) (c : Fin 90 → EReal) (q : Fin 2048)
    (hM : ∀ k : Fin 90, M (ix2 k q) = if k = l then 1#1 else 0#1) (hP : ∀ k : Fin 90, P (ix2 k q) = c k)
    (h : S90x2048.Reduces [0] S2048) :
    multiReduction .add [0] S2048 (select M P (broadcast S90x2048 (Scalar.ofBits (F := Ideal) .f32 0x00000000#32)))
        0x00000000#32 h (.inl rfl) rfl (ix1 q)
      = c l := by
  refine (sum_rows_apply _ h q).trans ?_
  refine (Finset.sum_congr rfl fun k _ => ?_).trans (sum_own l c)
  rw [select_apply, hM k, hP k, broadcast_apply]
  by_cases hk : k = l
  · rw [if_pos hk, if_pos hk, select_one]
  · rw [if_neg hk, if_neg hk, select_zero]; exact Ideal.ofBits_zero_f32

theorem pay6_apply (hc : CenIs cr cen) (hx : XIs xr r xb) (k : Fin 90) (q : Fin 2048) :
    k0_pay6 (F := Ideal) cen xb (ix2 k q) = ((cosv xr cr (r q) k : ℝ) : EReal) := by
  unfold k0_pay6
  exact prod_apply (pay5_ncIs hc) hx k q

theorem pay7_apply (hl : LabIs lb r l3) (k : Fin 90) (q : Fin 2048) :
    k0_pay7 (F := Ideal) l3 (ix2 k q) = if k = lb (r q) then 1#1 else 0#1 := by
  unfold k0_pay7
  exact mask_apply hl _ _ _ _ k q

theorem pay8_apply (hc : CenIs cr cen) (hx : XIs xr r xb) (hl : LabIs lb r l3) (q : Fin 2048) :
    k0_pay8 (F := Ideal) cen xb l3 (ix1 q) = ((best xr cr (r q) (lb (r q)) : ℝ) : EReal) := by
  unfold k0_pay8
  exact colmax_apply (k0_pay7 (F := Ideal) l3) (k0_pay6 (F := Ideal) cen xb) (lb (r q)) (fun k => cosv xr cr (r q) k) q
    (fun k => pay7_apply hl k q) (fun k => pay6_apply hc hx k q) _

theorem pay9_apply (hc : CenIs cr cen) (hx : XIs xr r xb) (hl : LabIs lb r l3) (q : Fin 2048) :
    k0_pay9 (F := Ideal) cen xb l3 (ix1 q) = ((cosv xr cr (r q) (lb (r q)) : ℝ) : EReal) := by
  unfold k0_pay9
  exact ownsum_apply (k0_pay7 (F := Ideal) l3) (k0_pay6 (F := Ideal) cen xb) (lb (r q))
    (fun k => ((cosv xr cr (r q) k : ℝ) : EReal)) q (fun k => pay7_apply hl k q) (fun k => pay6_apply hc hx k q) _

theorem pay10_apply (hc : CenIs cr cen) (hx : XIs xr r xb) (k : Fin 90) (q : Fin 2048) :
    k0_pay10 (F := Ideal) cen xb (ix2 k q) = ((cosv xr cr (r q) k : ℝ) : EReal) := by
  unfold k0_pay10
  exact prod_apply (pay5_ncIs hc) hx k q

theorem pay11_apply (hl : LabIs lb r l3) (k : Fin 90) (q : Fin 2048) :
    k0_pay11 (F := Ideal) l3 (ix2 k q) = if k = lb (r q) then 1#1 else 0#1 := by
  unfold k0_pay11
  exact mask_apply hl _ _ _ _ k q

theorem pay12_apply (hc : CenIs cr cen) (hx : XIs xr r xb) (hl : LabIs lb r l3) (q : Fin 2048) :
    k0_pay12 (F := Ideal) cen xb l3 (ix1 q) = ((best xr cr (r q) (lb (r q)) : ℝ) : EReal) := by
  unfold k0_pay12
  exact colmax_apply (k0_pay11 (F := Ideal) l3) (k0_pay10 (F := Ideal) cen xb) (lb (r q)) (fun k => cosv xr cr (r q) k) q
    (fun k => pay11_apply hl k q) (fun k => pay10_apply hc hx k q) _

theorem pay13_apply (hc : CenIs cr cen) (hx : XIs xr r xb) (hl : LabIs lb r l3) (q : Fin 2048) :
    k0_pay13 (F := Ideal) (k0_pay10 (F := Ideal) cen xb) (k0_pay11 (F := Ideal) l3) (ix1 q) = ((cosv xr cr (r q) (lb (r q)) : ℝ) : EReal) := by
  unfold k0_pay13
  exact ownsum_apply (k0_pay11 (F := Ideal) l3) (k0_pay10 (F := Ideal) cen xb) (lb (r q))
    (fun k => ((cosv xr cr (r q) k : ℝ) : EReal)) q (fun k => pay11_apply hl k q) (fun k => pay10_apply hc hx k q) _

theorem pay14_apply (hn : NcIs cr nc) (hx : XIs xr r xb) (k : Fin 90) (q : Fin 2048) :
    k0_pay14 (F := Ideal) nc xb (ix2 k q) = ((cosv xr cr (r q) k : ℝ) : EReal) := by
  unfold k0_pay14
  exact prod_apply hn hx k q

theorem pay15_apply (hl : LabIs lb r l3) (k : Fin 90) (q : Fin 2048) :
    k0_pay15 (F := Ideal) l3 (ix2 k q) = if k = lb (r q) then 1#1 else 0#1 := by
  unfold k0_pay15
  exact mask_apply hl _ _ _ _ k q

theorem pay16_apply (hn : NcIs cr nc) (hx : XIs xr r xb) (hl : LabIs lb r l3) (q : Fin 2048) :
    k0_pay16 (F := Ideal) nc xb l3 (ix1 q) = ((best xr cr (r q) (lb (r q)) : ℝ) : EReal) := by
  unfold k0_pay16
  exact colmax_apply (k0_pay15 (F := Ideal) l3) (k0_pay14 (F := Ideal) nc xb) (lb (r q)) (fun k => cosv xr cr (r q) k) q
    (fun k => pay15_apply hl k q) (fun k => pay14_apply hn hx k q) _

theorem pay17_apply (hn : NcIs cr nc) (hx : XIs xr r xb) (hl : LabIs lb r l3) (q : Fin 2048) :
    k0_pay17 (F := Ideal) nc xb l3 (ix1 q) = ((cosv xr cr (r q) (lb (r q)) : ℝ) : EReal) := by
  unfold k0_pay17
  exact ownsum_apply (k0_pay15 (F := Ideal) l3) (k0_pay14 (F := Ideal) nc xb) (lb (r q))
    (fun k => ((cosv xr cr (r q) k : ℝ) : EReal)) q (fun k => pay15_apply hl k q) (fun k => pay14_apply hn hx k q) _

theorem pay18_apply (hn : NcIs cr nc) (hx : XIs xr r xb) (k : Fin 90) (q : Fin 2048) :
    k0_pay18 (F := Ideal) nc xb (ix2 k q) = ((cosv xr cr (r q) k : ℝ) : EReal) := by
  unfold k0_pay18
  exact prod_apply hn hx k q

theorem pay19_apply (hl : LabIs lb r l3) (k : Fin 90) (q : Fin 2048) :
    k0_pay19 (F := Ideal) l3 (ix2 k q) = if k = lb (r q) then 1#1 else 0#1 := by
  unfold k0_pay19
  exact mask_apply hl _ _ _ _ k q

theorem pay20_apply (hn : NcIs cr nc) (hx : XIs xr r xb) (hl : LabIs lb r l3) (q : Fin 2048) :
    k0_pay20 (F := Ideal) nc xb l3 (ix1 q) = ((best xr cr (r q) (lb (r q)) : ℝ) : EReal) := by
  unfold k0_pay20
  exact colmax_apply (k0_pay19 (F := Ideal) l3) (k0_pay18 (F := Ideal) nc xb) (lb (r q)) (fun k => cosv xr cr (r q) k) q
    (fun k => pay19_apply hl k q) (fun k => pay18_apply hn hx k q) _

theorem pay21_apply (hn : NcIs cr nc) (hx : XIs xr r xb) (hl : LabIs lb r l3) (q : Fin 2048) :
    k0_pay21 (F := Ideal) nc xb l3 (ix1 q) = ((cosv xr cr (r q) (lb (r q)) : ℝ) : EReal) := by
  unfold k0_pay21
  exact ownsum_apply (k0_pay19 (F := Ideal) l3) (k0_pay18 (F := Ideal) nc xb) (lb (r q))
    (fun k => ((cosv xr cr (r q) k : ℝ) : EReal)) q (fun k => pay19_apply hl k q) (fun k => pay18_apply hn hx k q) _

theorem pay22_apply (m p : FVec Ideal S2048 .f32) (mr pr : ℝ) (q : Fin 2048)
    (hm : m (ix1 q) = ((mr : ℝ) : EReal)) (hp : p (ix1 q) = ((pr : ℝ) : EReal)) :
    k0_pay22 (F := Ideal) m p (ix1 q) = ((max (1 + mr - pr) 0 : ℝ) : EReal) := by
  unfold k0_pay22
  show max (Ideal.ofBits .f32 0x3F800000#32 + m (ix1 q) - p (ix1 q)) (Ideal.ofBits .f32 0x00000000#32) = _
  rw [hm, hp, one_val, zero_val, ← EReal.coe_add, ← EReal.coe_sub, ← coe_max]

theorem hinge_a (hc : CenIs cr cen) (hx : XIs xr r xb) (hl : LabIs lb r l3) (q : Fin 2048) :
    k0_pay22 (F := Ideal) (k0_pay8 (F := Ideal) cen xb l3) (k0_pay9 (F := Ideal) cen xb l3) (ix1 q)
      = ((hinge xr lb cr (r q) : ℝ) : EReal) :=
  pay22_apply _ _ _ _ q (pay8_apply hc hx hl q) (pay9_apply hc hx hl q)

theorem hinge_b (hc : CenIs cr cen) (hx : XIs xr r xb) (hl : LabIs lb r l3) (q : Fin 2048) :
    k0_pay22 (F := Ideal) (k0_pay12 (F := Ideal) cen xb l3)
        (k0_pay13 (F := Ideal) (k0_pay10 (F := Ideal) cen xb) (k0_pay11 (F := Ideal) l3)) (ix1 q)
      = ((hinge xr lb cr (r q) : ℝ) : EReal) :=
  pay22_apply _ _ _ _ q (pay12_apply hc hx hl q) (pay13_apply hc hx hl q)

theorem hinge_c (hn : NcIs cr nc) (hx : XIs xr r xb) (hl : LabIs lb r l3) (q : Fin 2048) :
    k0_pay22 (F := Ideal) (k0_pay16 (F := Ideal) nc xb l3) (k0_pay17 (F := Ideal) nc xb l3) (ix1 q)
      = ((hinge xr lb cr (r q) : ℝ) : EReal) :=
  pay22_apply _ _ _ _ q (pay16_apply hn hx hl q) (pay17_apply hn hx hl q)

theorem hinge_d (hn : NcIs cr nc) (hx : XIs xr r xb) (hl : LabIs lb r l3) (q : Fin 2048) :
    k0_pay22 (F := Ideal) (k0_pay20 (F := Ideal) nc xb l3) (k0_pay21 (F := Ideal) nc xb l3) (ix1 q)
      = ((hinge xr lb cr (r q) : ℝ) : EReal) :=
  pay22_apply _ _ _ _ q (pay20_apply hn hx hl q) (pay21_apply hn hx hl q)

theorem total_apply (v : FVec Ideal S2048 .f32) (h1 : S2048.ShapeCasts S1x2048) (h2 : S1x2048.Reduces [1] S1)
    (h3 : S1.ShapeCasts S1x1) (h4 : ∀ a, (![0, 0] : Fin 2 → ℕ) a < S1x1.size a) :
    extractAt ![0, 0] (shapeCast S1x1 (multiReduction .add [1] S1 (shapeCast S1x2048 v h1) 0x00000000#32 h2 (.inl rfl) rfl) h3) h4
      = ∑ q : Fin 2048, v (ix1 q) := by
  refine (extractAt_00 _ h4).trans ?_
  refine (shapeCast_a_a1_apply _ h3 (0 : Fin 1) (0 : Fin 1)).trans ?_
  refine (sum_cols_apply _ h2 (0 : Fin 1)).trans ?_
  exact Finset.sum_congr rfl fun q _ => shapeCast_a_1a_apply v h1 (0 : Fin 1) q

theorem colsel_apply (w : FVec Ideal S2048 .f32) (h1 : S1x2048.Iotas .tc 32 [1]) (h2 : S1x2048.ShapeCasts S2048)
    (q : Fin 2048) :
    select (cmpi .slt (shapeCast S2048 (iota .tc S1x2048 32 [1] h1) h2) (broadcast S2048 1536#32)) w
        (broadcast S2048 (Scalar.ofBits (F := Ideal) .f32 0x00000000#32)) (ix1 q)
      = if q.val < 1536 then w (ix1 q) else 0 := by
  rw [select_apply, cmpi_apply, shapeCast_1a_a_apply, iota_single_apply, broadcast_apply, broadcast_apply]
  show Scalar.select (BitVec.ofBool ((BitVec.ofNat 32 q.val).slt 1536#32)) (w (ix1 q)) (Ideal.ofBits .f32 0x00000000#32) = _
  rw [slt_1536, Ideal.ofBits_zero_f32]
  by_cases h : q.val < 1536
  · rw [if_pos h, decide_eq_true h]; exact select_one _ _
  · rw [if_neg h, decide_eq_false h]; exact select_zero _ _

theorem total_sel_apply (w : FVec Ideal S2048 .f32) (i1 : S1x2048.Iotas .tc 32 [1]) (i2 : S1x2048.ShapeCasts S2048)
    (h1 : S2048.ShapeCasts S1x2048) (h2 : S1x2048.Reduces [1] S1) (h3 : S1.ShapeCasts S1x1)
    (h4 : ∀ a, (![0, 0] : Fin 2 → ℕ) a < S1x1.size a) :
    extractAt ![0, 0] (shapeCast S1x1 (multiReduction .add [1] S1 (shapeCast S1x2048
        (select (cmpi .slt (shapeCast S2048 (iota .tc S1x2048 32 [1] i1) i2) (broadcast S2048 1536#32)) w
          (broadcast S2048 (Scalar.ofBits (F := Ideal) .f32 0x00000000#32))) h1) 0x00000000#32 h2 (.inl rfl) rfl) h3) h4
      = ∑ q : Fin 2048, if q.val < 1536 then w (ix1 q) else 0 :=
  (total_apply _ h1 h2 h3 h4).trans (Finset.sum_congr rfl fun q _ => colsel_apply w i1 i2 q)

theorem pay23_struct (arg0 : BitVec 32) (v35 v38 v49 v52 v63 v66 v71 : FVec Ideal S2048 .f32) :
    k0_pay23 (F := Ideal) arg0 v35 v38 v49 v52 v63 v66 v71
      = (∑ q : Fin 2048, v71 (ix1 q)) + (∑ q : Fin 2048, k0_pay22 (F := Ideal) v35 v38 (ix1 q))
          + (∑ q : Fin 2048, k0_pay22 (F := Ideal) v49 v52 (ix1 q))
          + Scalar.select (Scalar.cmpi .slt arg0 1#32) (∑ q : Fin 2048, k0_pay22 (F := Ideal) v63 v66 (ix1 q))
              (∑ q : Fin 2048, if q.val < 1536 then k0_pay22 (F := Ideal) v63 v66 (ix1 q) else 0) := by
  unfold k0_pay23
  exact congrArg₂ (fun (x y : EReal) => x + y)
    (congrArg₂ (fun (x y : EReal) => x + y)
      (congrArg₂ (fun (x y : EReal) => x + y) (total_apply v71 _ _ _ _)
        (total_apply (k0_pay22 (F := Ideal) v35 v38) _ _ _ _))
      (total_apply (k0_pay22 (F := Ideal) v49 v52) _ _ _ _))
    (congrArg₂ (fun (x y : EReal) => Scalar.select (Scalar.cmpi .slt arg0 1#32) x y)
      (total_apply (k0_pay22 (F := Ideal) v63 v66) _ _ _ _)
      (total_sel_apply (k0_pay22 (F := Ideal) v63 v66) _ _ _ _ _ _))

/-- A grid point's part is the sum of the hinge terms of its four blocks of 2048 rows, the fourth cut at 1536 at the second point. -/
theorem pay23_eq {g : ℕ} (hg : g < 2) (hc : CenIs cr cen)
    (hxa : XIs xr ra xa) (hla : LabIs lb ra la) (hxb : XIs xr rb xb) (hlb : LabIs lb rb lbk)
    (hxc : XIs xr rc xc) (hlc : LabIs lb rc lc) (hxd : XIs xr rd xd) (hld : LabIs lb rd ld) :
    k0_pay23 (F := Ideal) (BitVec.ofNat 32 g)
        (k0_pay12 (F := Ideal) cen xb lbk)
        (k0_pay13 (F := Ideal) (k0_pay10 (F := Ideal) cen xb) (k0_pay11 (F := Ideal) lbk))
        (k0_pay16 (F := Ideal) (k0_pay5 (F := Ideal) cen) xc lc) (k0_pay17 (F := Ideal) (k0_pay5 (F := Ideal) cen) xc lc)
        (k0_pay20 (F := Ideal) (k0_pay5 (F := Ideal) cen) xd ld) (k0_pay21 (F := Ideal) (k0_pay5 (F := Ideal) cen) xd ld)
        (k0_pay22 (F := Ideal) (k0_pay8 (F := Ideal) cen xa la) (k0_pay9 (F := Ideal) cen xa la))
      = (((∑ q : Fin 2048, hinge xr lb cr (ra q)) + (∑ q : Fin 2048, hinge xr lb cr (rb q))
          + (∑ q : Fin 2048, hinge xr lb cr (rc q))
          + (if g = 0 then ∑ q : Fin 2048, hinge xr lb cr (rd q)
              else ∑ q : Fin 2048, if q.val < 1536 then hinge xr lb cr (rd q) else 0) : ℝ) : EReal) := by
  have hn := pay5_ncIs hc
  have sa : (∑ q : Fin 2048, k0_pay22 (F := Ideal) (k0_pay8 (F := Ideal) cen xa la) (k0_pay9 (F := Ideal) cen xa la) (ix1 q))
      = ((∑ q : Fin 2048, hinge xr lb cr (ra q) : ℝ) : EReal) := by
    rw [coe_sum]; exact Finset.sum_congr rfl fun q _ => hinge_a hc hxa hla q
  have sb : (∑ q : Fin 2048, k0_pay22 (F := Ideal) (k0_pay12 (F := Ideal) cen xb lbk)
        (k0_pay13 (F := Ideal) (k0_pay10 (F := Ideal) cen xb) (k0_pay11 (F := Ideal) lbk)) (ix1 q))
      = ((∑ q : Fin 2048, hinge xr lb cr (rb q) : ℝ) : EReal) := by
    rw [coe_sum]; exact Finset.sum_congr rfl fun q _ => hinge_b hc hxb hlb q
  have sc : (∑ q : Fin 2048, k0_pay22 (F := Ideal) (k0_pay16 (F := Ideal) (k0_pay5 (F := Ideal) cen) xc lc)
        (k0_pay17 (F := Ideal) (k0_pay5 (F := Ideal) cen) xc lc) (ix1 q))
      = ((∑ q : Fin 2048, hinge xr lb cr (rc q) : ℝ) : EReal) := by
    rw [coe_sum]; exact Finset.sum_congr rfl fun q _ => hinge_c hn hxc hlc q
  have sd : (∑ q : Fin 2048, k0_pay22 (F := Ideal) (k0_pay20 (F := Ideal) (k0_pay5 (F := Ideal) cen) xd ld)
        (k0_pay21 (F := Ideal) (k0_pay5 (F := Ideal) cen) xd ld) (ix1 q))
      = ((∑ q : Fin 2048, hinge xr lb cr (rd q) : ℝ) : EReal) := by
    rw [coe_sum]; exact Finset.sum_congr rfl fun q _ => hinge_d hn hxd hld q
  have sd' : (∑ q : Fin 2048, if q.val < 1536 then k0_pay22 (F := Ideal) (k0_pay20 (F := Ideal) (k0_pay5 (F := Ideal) cen) xd ld)
        (k0_pay21 (F := Ideal) (k0_pay5 (F := Ideal) cen) xd ld) (ix1 q) else 0)
      = ((∑ q : Fin 2048, (if q.val < 1536 then hinge xr lb cr (rd q) else 0) : ℝ) : EReal) := by
    rw [coe_sum]
    refine Finset.sum_congr rfl fun q _ => ?_
    by_cases h : q.val < 1536
    · rw [if_pos h, if_pos h]; exact hinge_d hn hxd hld q
    · rw [if_neg h, if_neg h, EReal.coe_zero]
  rw [pay23_struct, sel_grid g hg, sa, sb, sc, sd, sd']
  by_cases h0 : g = 0
  · rw [if_pos h0, if_pos h0, EReal.coe_add, EReal.coe_add, EReal.coe_add]
  · rw [if_neg h0, if_neg h0, EReal.coe_add, EReal.coe_add, EReal.coe_add]

theorem pay1_apply (v63 : FVec Ideal S2048 .f32) (u v : Fin 1) (q : Fin 2048) :
    k0_pay1 (F := Ideal) v63 (ix3 u v q) = v63 (ix1 q) := by
  unfold k0_pay1
  exact shapeCast_a_11a_apply v63 _ u v q

theorem mi_row0_apply (hc : CenIs cr cen) (hx : XIs xr r xb) (hl : LabIs lb r l3) (u v : Fin 1) (q : Fin 2048) :
    k0_pay1 (F := Ideal) (k0_pay20 (F := Ideal) (k0_pay5 (F := Ideal) cen) xb l3) (ix3 u v q)
      = ((best xr cr (r q) (lb (r q)) : ℝ) : EReal) :=
  (pay1_apply _ u v q).trans (pay20_apply (pay5_ncIs hc) hx hl q)

theorem pay2_apply (hc : CenIs cr cen) (hl : LabIs lb r l3) (u v : Fin 1) (q : Fin 2048) :
    k0_pay2 (F := Ideal) (k0_pay4 (F := Ideal) cen) (k0_pay19 (F := Ideal) l3) (ix3 u v q)
      = ((1 / den cr (lb (r q)) : ℝ) : EReal) := by
  unfold k0_pay2
  refine (shapeCast_a_11a_apply _ _ u v q).trans ?_
  refine ownsum_apply (k0_pay19 (F := Ideal) l3) _ (lb (r q)) (fun k => ((1 / den cr k : ℝ) : EReal)) q
    (fun k => pay19_apply hl k q) (fun k => ?_) _
  rw [broadcastTo_a1_ab_apply _ _ k q (0 : Fin 1), shapeCast_self, pay4_apply hc k 0]

theorem pay3_eq (p prev : EReal) : k0_pay3 (F := Ideal) p prev = prev + p := rfl

end Cert.KernelIdeal.R0Ideal

end
-- ==== Proof.R2Ideal.lean ====
import proofs.«217715_g15917148799621_cont_week2b_1297_29_alg».proof.Proof.Gen.KernelIdeal.Skeleton
import proofs.«217715_g15917148799621_cont_week2b_1297_29_alg».proof.Proof.Spec
import Idealize.ShloMosaic.Lib.ValueIdx
import Idealize.ShloMosaic.Lib.ValueLayout
import Idealize.ShloMosaic.PureOps.Ideal.Laws
import Mathlib.Algebra.BigOperators.Fin
import Mathlib.Tactic.NormNum
import Mathlib.Tactic.Ring

noncomputable section

open scoped BigOperators

namespace Cert.KernelIdeal.R2Ideal

open Cert.KernelIdeal Cert.KernelIdeal.Gen Idealize.ShloMosaic Idealize.ShloMosaic.ValueIdx Cert.Spec

theorem scale_f32 : Ideal.ofBits .f32 0x38800000#32 = (((2 : ℝ) ^ (-14 : ℤ) : ℝ) : EReal) := by
  have h : Ideal.ofBits .f32 0x38800000#32
      = (((2 ^ 23 + 0 : ℕ) : ℝ) * (2 : ℝ) ^ (113 - 127 - 23 : Int) : ℝ) := by
    simp [Ideal.ofBits, Ideal.ieee]
  rw [h, EReal.coe_eq_coe_iff]
  norm_num [zpow_neg]

theorem lhs_0 (i : S1x512.Idx) (q : dot_S1x16_S512x16_S1x512_1_1_0_0_n_n.contr.Idx) :
    (dot_S1x16_S512x16_S1x512_1_1_0_0_n_n.lhsIdx i q 0).val = (i 0).val := by
  unfold DotDims.lhsIdx
  rw [dif_neg (show ¬(0 : Fin S1x16.rank) ∈ dot_S1x16_S512x16_S1x512_1_1_0_0_n_n.lhsBatch by decide), dif_pos (show (0 : Fin S1x16.rank) ∈ dot_S1x16_S512x16_S1x512_1_1_0_0_n_n.lhsNonContracting by decide)]
  rfl
theorem lhs_1 (i : S1x512.Idx) (q : dot_S1x16_S512x16_S1x512_1_1_0_0_n_n.contr.Idx) :
    (dot_S1x16_S512x16_S1x512_1_1_0_0_n_n.lhsIdx i q 1).val = (q ⟨0, by decide⟩).val :=
  dot_S1x16_S512x16_S1x512_1_1_0_0_n_n.lhsIdx_val_of_single rfl i q
theorem rhs_0 (i : S1x512.Idx) (q : dot_S1x16_S512x16_S1x512_1_1_0_0_n_n.contr.Idx) :
    (dot_S1x16_S512x16_S1x512_1_1_0_0_n_n.rhsIdx i q 0).val = (i 1).val := by
  unfold DotDims.rhsIdx
  rw [dif_neg (show ¬(0 : Fin S512x16.rank) ∈ dot_S1x16_S512x16_S1x512_1_1_0_0_n_n.rhsBatch by decide), dif_pos (show (0 : Fin S512x16.rank) ∈ dot_S1x16_S512x16_S1x512_1_1_0_0_n_n.rhsNonContracting by decide)]
  rfl
theorem rhs_1 (i : S1x512.Idx) (q : dot_S1x16_S512x16_S1x512_1_1_0_0_n_n.contr.Idx) :
    (dot_S1x16_S512x16_S1x512_1_1_0_0_n_n.rhsIdx i q 1).val = (q ⟨0, by decide⟩).val :=
  dot_S1x16_S512x16_S1x512_1_1_0_0_n_n.rhsIdx_val_of_single rfl i q

theorem matmul_row (lhs : FVec Ideal S1x16 .f32) (rhs : FVec Ideal S512x16 .f32) (r : Fin 512) :
    matmul dot_S1x16_S512x16_S1x512_1_1_0_0_n_n none lhs rhs (constant S1x512 .f32 0x00000000#32) (ix2 (0 : Fin 1) r)
      = ∑ k : Fin 16, lhs (ix2 (0 : Fin 1) k) * rhs (ix2 r k) := by
  simp only [matmul]
  rw [Ideal.matmul_constant_zero_apply, ← Equiv.sum_comp (ValueIdx.contrEquiv1 dot_S1x16_S512x16_S1x512_1_1_0_0_n_n 16 rfl rfl).symm]
  refine Finset.sum_congr rfl fun k _ => ?_
  have hk := ValueIdx.contrEquiv1_symm_val dot_S1x16_S512x16_S1x512_1_1_0_0_n_n 16 rfl rfl k
  have el : dot_S1x16_S512x16_S1x512_1_1_0_0_n_n.lhsIdx (ix2 (0 : Fin 1) r) ((ValueIdx.contrEquiv1 dot_S1x16_S512x16_S1x512_1_1_0_0_n_n 16 rfl rfl).symm k) = ix2 (0 : Fin 1) k := funext fun a => Fin.ext (by
    match a with
    | ⟨0, _⟩ => exact lhs_0 _ _
    | ⟨1, _⟩ => exact (lhs_1 _ _).trans hk)
  have er : dot_S1x16_S512x16_S1x512_1_1_0_0_n_n.rhsIdx (ix2 (0 : Fin 1) r) ((ValueIdx.contrEquiv1 dot_S1x16_S512x16_S1x512_1_1_0_0_n_n 16 rfl rfl).symm k) = ix2 r k := funext fun a => Fin.ext (by
    match a with
    | ⟨0, _⟩ => exact rhs_0 _ _
    | ⟨1, _⟩ => exact (rhs_1 _ _).trans hk)
  rw [el, er]

theorem cast_11a_a {α : Type} {n : ℕ} (x : (⟨3, ![1, 1, n]⟩ : Shape).Idx → α)
    (h : (⟨3, ![1, 1, n]⟩ : Shape).ShapeCasts ⟨1, ![n]⟩) (r : Fin n) :
    shapeCast ⟨1, ![n]⟩ x h (ix1 r) = x (ix3 (0 : Fin 1) (0 : Fin 1) r) :=
  shapeCast_apply x h _ _ (by
    rw [Shape.rowMajor_val_three, Shape.rowMajor_val_one]
    show (0 * 1 + 0) * n + r.val = r.val
    rw [Nat.zero_mul, Nat.zero_add])

theorem idx_S1 (j : (⟨1, ![1]⟩ : Shape).Idx) : j = ix1 (0 : Fin 1) :=
  (eq_ix1 j).trans (congrArg ix1 (Subsingleton.elim (α := Fin 1) _ _))

theorem extract_S1x1 {α : Type} (w : (⟨1, ![1]⟩ : Shape).Idx → α) (h : (⟨1, ![1]⟩ : Shape).ShapeCasts ⟨2, ![1, 1]⟩)
    (h' : ∀ a, (![0, 0] : Fin 2 → Nat) a < (⟨2, ![1, 1]⟩ : Shape).size a) :
    extractAt ![0, 0] (shapeCast ⟨2, ![1, 1]⟩ w h) h' = w (ix1 (0 : Fin 1)) := by
  unfold extractAt shapeCast
  exact congrArg w (idx_S1 _)

theorem sum512 (src : FVec Ideal S1x512 .f32) (h : S1x512.Reduces [1] S1) (hφ : FKind.Formats .f32)
    (hacc : (0x00000000#32 : BitVec 32) = 0x00000000#32) :
    multiReduction .add [1] S1 src 0x00000000#32 h hφ hacc (ix1 (0 : Fin 1))
      = ∑ r : Fin 512, src (ix2 (0 : Fin 1) r) := by
  refine (Ideal.multiReduction_add_single src 0x00000000#32 h hφ hacc (ix1 (0 : Fin 1))).trans ?_
  refine Finset.sum_congr rfl fun r _ => congrArg src (funext fun c => Fin.ext ?_)
  match c with
  | ⟨0, _⟩ => rfl
  | ⟨1, _⟩ => rfl

/-- The last step adds the 512 remaining rows' hinge terms, each own cosine a lane sum times a reciprocal norm, and scales by 2^-14. -/
theorem k2_pay1_apply (v1 : Vec Ideal S1x512x16 .f32) (v5 v7 : Vec Ideal S1x1x512 .f32) (v19 : Elt Ideal .f32)
    (p : Fin 512 → Fin 16 → ℝ) (mrow irow : Fin 512 → ℝ) (part : ℝ)
    (h1 : ∀ (r : Fin 512) (l : Fin 16), v1 (ix3 (0 : Fin 1) r l) = (p r l : EReal))
    (h5 : ∀ r : Fin 512, v5 (ix3 (0 : Fin 1) (0 : Fin 1) r) = (mrow r : EReal))
    (h7 : ∀ r : Fin 512, v7 (ix3 (0 : Fin 1) (0 : Fin 1) r) = (irow r : EReal))
    (h19 : v19 = (part : EReal)) :
    k2_pay1 (F := Ideal) v1 v5 v7 v19
      = (((part + ∑ r : Fin 512, max (1 + mrow r - (∑ l : Fin 16, p r l) * irow r) 0) * (2 : ℝ) ^ (-14 : ℤ) : ℝ) : EReal) := by
  simp only [k2_pay1, Ideal.scalar_mulf_def, Ideal.scalar_addf_def]
  rw [extract_S1x1, sum512]
  simp only [shapeCast_a_1a_apply, maximumf_apply, subf_apply, addf_apply, mulf_apply, broadcast_apply, cast_11a_a,
    shapeCast_1a_a_apply, matmul_row, shapeCast_1ab_ab_apply, Ideal.ofBits_def, one_val, zero_val, scale_f32,
    h1, h5, h7, h19]
  simp only [← EReal.coe_mul, ← coe_sum, ← EReal.coe_add, ← EReal.coe_sub, ← coe_max]
  rw [EReal.coe_eq_coe_iff]
  simp only [one_mul]

end Cert.KernelIdeal.R2Ideal

end
-- ==== Proof.ValueAsm.lean ====
import proofs.«217715_g15917148799621_cont_week2b_1297_29_alg».proof.Proof.Main
import proofs.«217715_g15917148799621_cont_week2b_1297_29_alg».proof.Proof.R0Value
import proofs.«217715_g15917148799621_cont_week2b_1297_29_alg».proof.Proof.R2Value
import proofs.«217715_g15917148799621_cont_week2b_1297_29_alg».proof.Proof.Tile
import proofs.«217715_g15917148799621_cont_week2b_1297_29_alg».proof.Proof.PreFacts
import proofs.«217715_g15917148799621_cont_week2b_1297_29_alg».proof.Proof.Glue
import proofs.«217715_g15917148799621_cont_week2b_1297_29_alg».proof.Proof.ScIdeal
import proofs.«217715_g15917148799621_cont_week2b_1297_29_alg».proof.Proof.R0Ideal
import proofs.«217715_g15917148799621_cont_week2b_1297_29_alg».proof.Proof.R2Ideal
import proofs.«217715_g15917148799621_cont_week2b_1297_29_alg».proof.Proof.Gen.Pre_input_domain
import Idealize.ShloMosaic.Lib.Pipeline.Value
import Idealize.ShloMosaic.Lib.ValueLayout

noncomputable section

open scoped BigOperators

namespace Cert.KernelIdeal.ValueAsm

open Cert.KernelIdeal Cert.KernelIdeal.Gen Cert.KernelIdeal.Setup Cert.KernelIdeal.Regs Cert.KernelIdeal.Main
open Idealize.ShloMosaic Idealize.ShloMosaic.TcCoe Idealize.ShloMosaic.ValueIdx

section Arrays

variable {F : FTy → Type} [FloatOps F] [Named F]
variable (m : (ℓ : Loc nD τ sig) → Buf (Elt F) ℓ) (ov : (d : Dev nD) → Buf (Elt F) (oLoc d))

theorem V4_part (d : Dev nD) :
    (V4 m ov d main_v1_0 : Vec F S1x1 .f32)
      = R0.accB (R0.partAt (V1 m) d t0_1) (R0.accA (R0.partAt (V1 m) d t0_0)) := by
  show W4 m ov d p' = _
  rw [W4_of_ne m ov d p' (by decide), W3_of_ne m ov d p' (by decide), W2_p]
  exact R0.arrAt0_9 (V1 m) _ _ d

theorem V4_mi (d : Dev nD) :
    (V4 m ov d main_v1_1 : Vec F S2x1x2048 .f32) = R0.miAt (V1 m) d t0_1 := by
  show W4 m ov d mi' = _
  rw [W4_of_ne m ov d mi' (by decide), W3_of_ne m ov d mi' (by decide), W2_mi]
  exact R0.arrAt0_10 (V1 m) _ _ d

theorem V4_tab (d : Dev nD) (u : Fin 1) (r : Fin 512) (l : Fin 16) :
    (V4 m ov d main_v3 : Vec F S1x512x16 .f32) (ix3 u r l) = (ov d : Vec F S512x16 .f32) (ix2 r l) := by
  show W4 m ov d o3' (ix3 u r l) = _
  unfold W4
  refine (congrFun (StableHlo.reshape_result _ _ _ _ _ _ _) _).trans ?_
  show shapeCast S1x512x16 (W3 m ov d o') _ (ix3 u r l) = _
  rw [W3_o]
  exact shapeCast_ab_1ab_apply _ _ u r l

theorem W6_r5 (d : Dev nD) :
    (W6 m ov d r5' : Vec F S_ .f32)
      = fun _ => k2_pay1 (V4 m ov d main_v3 : Vec F S1x512x16 .f32)
          (View.ld (V4 m ov d main_v1_1 : Vec F S2x1x2048 .f32) R2.rRow0)
          (View.ld (V4 m ov d main_v1_1 : Vec F S2x1x2048 .f32) R2.rRow1)
          ((V4 m ov d main_v1_0 : Vec F S1x1 .f32) (ix2 0 0)) := by
  unfold W6
  refine (StableHlo.reshape_result _ _ _ _ _ _ _).trans ?_
  funext i
  show shapeCast S_ (W5 m ov d r4') _ i = _
  rw [show W5 m ov d r4' = (d2 m ov d).arrAt 3 cfg2.N from W5_arr m ov d 3, R2.arrAt2_3]
  rfl

theorem V1_x (d : Dev nD) : (V1 m d main_arg0 : FVec F S16384x128 .f32) = m (xLoc d) := by
  show W1 m d x' = _
  exact W1_of_ne m d x' (by decide)
theorem V1_c (d : Dev nD) : (V1 m d main_arg2 : FVec F S90x128 .f32) = m (cLoc d) := by
  show W1 m d c' = _
  exact W1_of_ne m d c' (by decide)

theorem V1_lab (d : Dev nD) (b : Fin 8) (u : Fin 1) (q : Fin 2048) (row : Fin 16384) (hrow : row.val = 2048 * b.val + q.val) :
    (V1 m d main_v0 : Vec F S8x1x2048 .i32) (ix3 b u q) = (m (lLoc d) : Vec F S16384 .i32) (ix1 row) := by
  show W1 m d v0' (ix3 b u q) = _
  unfold W1
  refine (congrFun (StableHlo.reshape_result _ _ _ _ _ _ _) _).trans ?_
  show shapeCast S8x1x2048 (W0 m d l') _ (ix3 b u q) = _
  refine shapeCast_apply _ _ _ _ ?_
  show (S16384.rowMajor (ix1 row)).val = (S8x1x2048.rowMajor (ix3 b u q)).val
  rw [Shape.rowMajor_val_one, Shape.rowMajor_val_three]
  show row.val = (b.val * 1 + u.val) * 2048 + q.val
  have hu : u.val = 0 := by omega
  omega

theorem index_p0 : win0_0.index t0_0 = ![0, 0] ∧ win0_1.index t0_0 = ![2, 0] ∧ win0_2.index t0_0 = ![4, 0]
    ∧ win0_3.index t0_0 = ![6, 0] ∧ win0_4.index t0_0 = ![0, 0]
    ∧ win0_5.index t0_0 = ![0, 0, 0] ∧ win0_6.index t0_0 = ![2, 0, 0] ∧ win0_7.index t0_0 = ![4, 0, 0]
    ∧ win0_8.index t0_0 = ![6, 0, 0] := by decide +kernel

theorem index_p1 : win0_0.index t0_1 = ![1, 0] ∧ win0_1.index t0_1 = ![3, 0] ∧ win0_2.index t0_1 = ![5, 0]
    ∧ win0_3.index t0_1 = ![7, 0] ∧ win0_4.index t0_1 = ![0, 0]
    ∧ win0_5.index t0_1 = ![1, 0, 0] ∧ win0_6.index t0_1 = ![3, 0, 0] ∧ win0_7.index t0_1 = ![5, 0, 0]
    ∧ win0_8.index t0_1 = ![7, 0, 0] := by decide +kernel

variable (V : (c : Dev nD) → (b : Ref sig .tc) → Buf (Elt F) ((c : Thread nD τ).loc b))

theorem cblk (d : Dev nD) (t : Fin cfg0.N) (he : win0_4.index t = ![0, 0]) (k : Fin 90) (j : Fin 128) :
    (R0.iblk0 V d 4 t : Vec F S90x128 .f32) (ix2 k j) = (V d main_arg2 : FVec F S90x128 .f32) (ix2 k j) := by
  have e0 : win0_4.index t (0 : Fin 2) = 0 := congrFun he 0
  have e1 : win0_4.index t (1 : Fin 2) = 0 := congrFun he 1
  show V d main_arg2 (((cfg0.win 4).blk t).view.emb (ix2 k j)) = _
  refine congrArg (V d main_arg2) (funext fun a => Fin.ext ?_)
  match a with
  | ⟨0, _⟩ => show win0_4.index t (0 : Fin 2) * 90 + 1 * k.val = k.val; omega
  | ⟨1, _⟩ => show win0_4.index t (1 : Fin 2) * 128 + 1 * j.val = j.val; omega

end Arrays

section Ideal

variable (m : (ℓ : Loc nD τ sig) → Buf (Elt Ideal) ℓ) (d : Dev nD)
variable (xr : Fin 16384 → Fin 128 → ℝ) (lb : Fin 16384 → Fin 90) (cr : Fin 90 → Fin 128 → ℝ)

structure Wit : Prop where
  hx : ∀ b j, (m (xLoc d) : FVec Ideal S16384x128 .f32) (ix2 b j) = ((xr b j : ℝ) : EReal)
  hl : ∀ b, ((m (lLoc d) : IVec S16384 32) (ix1 b)).toNat = (lb b).val
  hc : ∀ k j, (m (cLoc d) : FVec Ideal S90x128 .f32) (ix2 k j) = ((cr k j : ℝ) : EReal)

variable {m d xr lb cr}

theorem cenIs (h : Wit m d xr lb cr) (t : Fin cfg0.N) (he : win0_4.index t = ![0, 0]) :
    R0Ideal.CenIs cr (R0.iblk0 (V1 m) d 4 t) := fun k j =>
  (cblk (V1 m) d t he k j).trans ((congrFun (V1_c m d) (ix2 k j)).trans (h.hc k j))

/-- An index is the one its coordinates name. -/
theorem ix2_eq {a b : ℕ} (e : (⟨2, ![a, b]⟩ : Shape).Idx) (p : Fin a) (q : Fin b) (h0 : (e 0).val = p.val) (h1 : (e 1).val = q.val) :
    e = ix2 p q := funext fun x => Fin.ext (match x with | ⟨0, _⟩ => h0 | ⟨1, _⟩ => h1)
theorem ix3_eq {a b c : ℕ} (e : (⟨3, ![a, b, c]⟩ : Shape).Idx) (p : Fin a) (q : Fin b) (r : Fin c)
    (h0 : (e 0).val = p.val) (h1 : (e 1).val = q.val) (h2 : (e 2).val = r.val) :
    e = ix3 p q r := funext fun x => Fin.ext (match x with | ⟨0, _⟩ => h0 | ⟨1, _⟩ => h1 | ⟨2, _⟩ => h2)

/-- A block of `x` whose coordinates are block index times block size plus the offset inside it holds rows `base … base + 2047`. -/
theorem xIs_gen (h : Wit m d xr lb cr) (blkv : FVec Ideal S2048x128 .f32) (emb : S2048x128.Idx → S16384x128.Idx) (idx : Fin 2 → ℕ)
    (hblk : ∀ y, blkv y = V1 m d main_arg0 (emb y)) (hemb : ∀ y a, (emb y a).val = idx a * S2048x128.size a + 1 * (y a).val)
    (bi base : ℕ) (he : idx = ![bi, 0]) (hb : base + 2048 ≤ 16384) (hbase : base = bi * 2048) :
    R0Ideal.XIs xr (Glue.blk base hb) blkv := fun q j => by
  subst he
  rw [hblk, ix2_eq (emb (ix2 q j)) (Glue.blk base hb q) j
    (by rw [hemb]; show bi * 2048 + 1 * q.val = base + q.val; omega) (by rw [hemb]; show 0 * 128 + 1 * j.val = j.val; omega)]
  exact (congrFun (V1_x m d) _).trans (h.hx _ j)

/-- The same for a block of the labels, read through their reshape to eight rows of 2048. -/
theorem labIs_gen (h : Wit m d xr lb cr) (blkv : IVec S1x1x2048 32) (emb : S1x1x2048.Idx → S8x1x2048.Idx) (idx : Fin 3 → ℕ)
    (hblk : ∀ y, blkv y = V1 m d main_v0 (emb y)) (hemb : ∀ y a, (emb y a).val = idx a * S1x1x2048.size a + 1 * (y a).val)
    (bi base : ℕ) (hbi : bi < 8) (he : idx = ![bi, 0, 0]) (hb : base + 2048 ≤ 16384) (hbase : base = bi * 2048) :
    R0Ideal.LabIs lb (Glue.blk base hb) blkv := fun q => by
  subst he
  rw [hblk, ix3_eq (emb (ix3 (0 : Fin 1) (0 : Fin 1) q)) (⟨bi, hbi⟩ : Fin 8) (0 : Fin 1) q
    (by rw [hemb]; show bi * 1 + 1 * 0 = bi; omega) (by rw [hemb]; rfl) (by rw [hemb]; show 0 * 2048 + 1 * q.val = q.val; omega)]
  exact (congrArg BitVec.toNat (V1_lab m d ⟨bi, hbi⟩ 0 q (Glue.blk base hb q) (by show base + q.val = 2048 * bi + q.val; omega))).trans (h.hl _)

theorem xIs0 (h : Wit m d xr lb cr) (t : Fin cfg0.N) (bi base : ℕ) (he : win0_0.index t = ![bi, 0]) (hb : base + 2048 ≤ 16384)
    (hbase : base = bi * 2048) : R0Ideal.XIs xr (Glue.blk base hb) (R0.iblk0 (V1 m) d 0 t) :=
  xIs_gen h _ ((cfg0.win 0).blk t).view.emb _ (fun _ => rfl) (fun _ _ => rfl) bi base he hb hbase
theorem xIs1 (h : Wit m d xr lb cr) (t : Fin cfg0.N) (bi base : ℕ) (he : win0_1.index t = ![bi, 0]) (hb : base + 2048 ≤ 16384)
    (hbase : base = bi * 2048) : R0Ideal.XIs xr (Glue.blk base hb) (R0.iblk0 (V1 m) d 1 t) :=
  xIs_gen h _ ((cfg0.win 1).blk t).view.emb _ (fun _ => rfl) (fun _ _ => rfl) bi base he hb hbase
theorem xIs2 (h : Wit m d xr lb cr) (t : Fin cfg0.N) (bi base : ℕ) (he : win0_2.index t = ![bi, 0]) (hb : base + 2048 ≤ 16384)
    (hbase : base = bi * 2048) : R0Ideal.XIs xr (Glue.blk base hb) (R0.iblk0 (V1 m) d 2 t) :=
  xIs_gen h _ ((cfg0.win 2).blk t).view.emb _ (fun _ => rfl) (fun _ _ => rfl) bi base he hb hbase
theorem xIs3 (h : Wit m d xr lb cr) (t : Fin cfg0.N) (bi base : ℕ) (he : win0_3.index t = ![bi, 0]) (hb : base + 2048 ≤ 16384)
    (hbase : base = bi * 2048) : R0Ideal.XIs xr (Glue.blk base hb) (R0.iblk0 (V1 m) d 3 t) :=
  xIs_gen h _ ((cfg0.win 3).blk t).view.emb _ (fun _ => rfl) (fun _ _ => rfl) bi base he hb hbase

theorem labIs5 (h : Wit m d xr lb cr) (t : Fin cfg0.N) (bi base : ℕ) (hbi : bi < 8) (he : win0_5.index t = ![bi, 0, 0])
    (hb : base + 2048 ≤ 16384) (hbase : base = bi * 2048) : R0Ideal.LabIs lb (Glue.blk base hb) (R0.iblk0 (V1 m) d 5 t) :=
  labIs_gen h _ ((cfg0.win 5).blk t).view.emb _ (fun _ => rfl) (fun _ _ => rfl) bi base hbi he hb hbase
theorem labIs6 (h : Wit m d xr lb cr) (t : Fin cfg0.N) (bi base : ℕ) (hbi : bi < 8) (he : win0_6.index t = ![bi, 0, 0])
    (hb : base + 2048 ≤ 16384) (hbase : base = bi * 2048) : R0Ideal.LabIs lb (Glue.blk base hb) (R0.iblk0 (V1 m) d 6 t) :=
  labIs_gen h _ ((cfg0.win 6).blk t).view.emb _ (fun _ => rfl) (fun _ _ => rfl) bi base hbi he hb hbase
theorem labIs7 (h : Wit m d xr lb cr) (t : Fin cfg0.N) (bi base : ℕ) (hbi : bi < 8) (he : win0_7.index t = ![bi, 0, 0])
    (hb : base + 2048 ≤ 16384) (hbase : base = bi * 2048) : R0Ideal.LabIs lb (Glue.blk base hb) (R0.iblk0 (V1 m) d 7 t) :=
  labIs_gen h _ ((cfg0.win 7).blk t).view.emb _ (fun _ => rfl) (fun _ _ => rfl) bi base hbi he hb hbase
theorem labIs8 (h : Wit m d xr lb cr) (t : Fin cfg0.N) (bi base : ℕ) (hbi : bi < 8) (he : win0_8.index t = ![bi, 0, 0])
    (hb : base + 2048 ≤ 16384) (hbase : base = bi * 2048) : R0Ideal.LabIs lb (Glue.blk base hb) (R0.iblk0 (V1 m) d 8 t) :=
  labIs_gen h _ ((cfg0.win 8).blk t).view.emb _ (fun _ => rfl) (fun _ _ => rfl) bi base hbi he hb hbase

theorem part_p0 (h : Wit m d xr lb cr) :
    R0.partAt (V1 m) d t0_0
      = (((∑ q : Fin 2048, R0Ideal.hinge xr lb cr (Glue.blk 0 (by omega) q))
          + (∑ q : Fin 2048, R0Ideal.hinge xr lb cr (Glue.blk 4096 (by omega) q))
          + (∑ q : Fin 2048, R0Ideal.hinge xr lb cr (Glue.blk 8192 (by omega) q))
          + (∑ q : Fin 2048, R0Ideal.hinge xr lb cr (Glue.blk 12288 (by omega) q)) : ℝ) : EReal) := by
  obtain ⟨i0, i1, i2, i3, i4, i5, i6, i7, i8⟩ := index_p0
  refine (show R0.partAt (V1 m) d t0_0 = k0_pay23 (F := Ideal) (BitVec.ofNat 32 0) _ _ _ _ _ _ _ from rfl).trans ?_
  refine (R0Ideal.pay23_eq (g := 0) (by omega) (cenIs h t0_0 i4)
    (xIs0 h t0_0 0 0 i0 (by omega) rfl) (labIs5 h t0_0 0 0 (by omega) i5 (by omega) rfl)
    (xIs1 h t0_0 2 4096 i1 (by omega) rfl) (labIs6 h t0_0 2 4096 (by omega) i6 (by omega) rfl)
    (xIs2 h t0_0 4 8192 i2 (by omega) rfl) (labIs7 h t0_0 4 8192 (by omega) i7 (by omega) rfl)
    (xIs3 h t0_0 6 12288 i3 (by omega) rfl) (labIs8 h t0_0 6 12288 (by omega) i8 (by omega) rfl)).trans ?_
  rw [if_pos rfl]

theorem part_p1 (h : Wit m d xr lb cr) :
    R0.partAt (V1 m) d t0_1
      = (((∑ q : Fin 2048, R0Ideal.hinge xr lb cr (Glue.blk 2048 (by omega) q))
          + (∑ q : Fin 2048, R0Ideal.hinge xr lb cr (Glue.blk 6144 (by omega) q))
          + (∑ q : Fin 2048, R0Ideal.hinge xr lb cr (Glue.blk 10240 (by omega) q))
          + (∑ q : Fin 2048, if q.val < 1536 then R0Ideal.hinge xr lb cr (Glue.blk 14336 (by omega) q) else 0) : ℝ) : EReal) := by
  obtain ⟨i0, i1, i2, i3, i4, i5, i6, i7, i8⟩ := index_p1
  refine (show R0.partAt (V1 m) d t0_1 = k0_pay23 (F := Ideal) (BitVec.ofNat 32 1) _ _ _ _ _ _ _ from rfl).trans ?_
  refine (R0Ideal.pay23_eq (g := 1) (by omega) (cenIs h t0_1 i4)
    (xIs0 h t0_1 1 2048 i0 (by omega) rfl) (labIs5 h t0_1 1 2048 (by omega) i5 (by omega) rfl)
    (xIs1 h t0_1 3 6144 i1 (by omega) rfl) (labIs6 h t0_1 3 6144 (by omega) i6 (by omega) rfl)
    (xIs2 h t0_1 5 10240 i2 (by omega) rfl) (labIs7 h t0_1 5 10240 (by omega) i7 (by omega) rfl)
    (xIs3 h t0_1 7 14336 i3 (by omega) rfl) (labIs8 h t0_1 7 14336 (by omega) i8 (by omega) rfl)).trans ?_
  rw [if_neg (by decide)]

theorem acc_eq (h : Wit m d xr lb cr) (ov : (d : Dev nD) → Buf (Elt Ideal) (oLoc d)) :
    (V4 m ov d main_v1_0 : Vec Ideal S1x1 .f32) (ix2 0 0)
      = ((∑ b ∈ Finset.univ.filter (fun b : Fin 16384 => b.val < 15872),
            max (1 + Cert.Spec.best xr cr b (lb b) - Cert.Spec.cosv xr cr b (lb b)) 0 : ℝ) : EReal) := by
  refine (congrFun (V4_part m ov d) (ix2 0 0)).trans ?_
  show k0_pay3 (F := Ideal) (R0.partAt (V1 m) d t0_1)
      (k0_pay3 (F := Ideal) (R0.partAt (V1 m) d t0_0) (Ideal.ofBits .f32 0x00000000#32)) = _
  rw [R0Ideal.pay3_eq, R0Ideal.pay3_eq, part_p0 h, part_p1 h, Cert.Spec.zero_val, ← EReal.coe_add, ← EReal.coe_add, zero_add]
  exact congrArg Real.toEReal
    (Glue.regroup (fun b => max (1 + Cert.Spec.best xr cr b (lb b) - Cert.Spec.cosv xr cr b (lb b)) 0)).symm

theorem mrow_eq (h : Wit m d xr lb cr) (ov : (d : Dev nD) → Buf (Elt Ideal) (oLoc d)) (r : Fin 512) :
    View.ld (V4 m ov d main_v1_1 : Vec Ideal S2x1x2048 .f32) R2.rRow0 (ix3 (0 : Fin 1) (0 : Fin 1) r)
      = ((Cert.Spec.best xr cr (Glue.tailRow r) (lb (Glue.tailRow r)) : ℝ) : EReal) := by
  obtain ⟨i0, i1, i2, i3, i4, i5, i6, i7, i8⟩ := index_p1
  have hq : 1536 + r.val < 2048 := by omega
  have e : R2.rRow0.idx (ix3 (0 : Fin 1) (0 : Fin 1) r) = R0.rowLo.emb (ix3 (0 : Fin 1) (0 : Fin 1) ⟨1536 + r.val, hq⟩) :=
    funext fun a => Fin.ext (by
      match a with
      | ⟨0, _⟩ => rfl
      | ⟨1, _⟩ => rfl
      | ⟨2, _⟩ => show 1536 + 1 * r.val = 0 + 1 * (1536 + r.val); omega)
  show (V4 m ov d main_v1_1 : Vec Ideal S2x1x2048 .f32) (R2.rRow0.idx (ix3 (0 : Fin 1) (0 : Fin 1) r)) = _
  refine (congrFun (V4_mi m ov d) _).trans ?_
  refine (congrArg (R0.miAt (V1 m) d t0_1) e).trans ?_
  refine (R0.miOf_row0 _ _ _ _).trans ?_
  rw [Glue.tailRow_eq_blk r]
  exact R0Ideal.mi_row0_apply (cenIs h t0_1 i4) (xIs3 h t0_1 7 14336 i3 (by omega) rfl)
    (labIs8 h t0_1 7 14336 (by omega) i8 (by omega) rfl) 0 0 ⟨1536 + r.val, hq⟩

theorem irow_eq (h : Wit m d xr lb cr) (ov : (d : Dev nD) → Buf (Elt Ideal) (oLoc d)) (r : Fin 512) :
    View.ld (V4 m ov d main_v1_1 : Vec Ideal S2x1x2048 .f32) R2.rRow1 (ix3 (0 : Fin 1) (0 : Fin 1) r)
      = ((1 / Cert.Spec.den cr (lb (Glue.tailRow r)) : ℝ) : EReal) := by
  obtain ⟨i0, i1, i2, i3, i4, i5, i6, i7, i8⟩ := index_p1
  have hq : 1536 + r.val < 2048 := by omega
  have e : R2.rRow1.idx (ix3 (0 : Fin 1) (0 : Fin 1) r) = R0.rowHi.emb (ix3 (0 : Fin 1) (0 : Fin 1) ⟨1536 + r.val, hq⟩) :=
    funext fun a => Fin.ext (by
      match a with
      | ⟨0, _⟩ => rfl
      | ⟨1, _⟩ => rfl
      | ⟨2, _⟩ => show 1536 + 1 * r.val = 0 + 1 * (1536 + r.val); omega)
  show (V4 m ov d main_v1_1 : Vec Ideal S2x1x2048 .f32) (R2.rRow1.idx (ix3 (0 : Fin 1) (0 : Fin 1) r)) = _
  refine (congrFun (V4_mi m ov d) _).trans ?_
  refine (congrArg (R0.miAt (V1 m) d t0_1) e).trans ?_
  refine (R0.miOf_row1 _ _ _ _).trans ?_
  rw [Glue.tailRow_eq_blk r]
  exact R0Ideal.pay2_apply (cenIs h t0_1 i4) (labIs8 h t0_1 7 14336 (by omega) i8 (by omega) rfl) 0 0 ⟨1536 + r.val, hq⟩

theorem tab_eq (h : Wit m d xr lb cr) (r : Fin 512) (l : Fin 16) :
    (V4 m (Tile.scOut m) d main_v3 : Vec Ideal S1x512x16 .f32) (ix3 (0 : Fin 1) r l)
      = ((∑ k : Fin 8, xr (Glue.tailRow r) (Glue.lane k l) * cr (lb (Glue.tailRow r)) (Glue.lane k l) : ℝ) : EReal) := by
  refine (V4_tab m (Tile.scOut m) d 0 r l).trans ?_
  have hrow : Tile.labRow (Tile.lA m d (ix1 (Tile.srcRow r))) = lb (Glue.tailRow r) := Fin.ext (by
    show min ((m (lLoc d) : IVec S16384 32) (ix1 (Tile.srcRow r))).toNat 89 = (lb (Glue.tailRow r)).val
    rw [h.hl (Tile.srcRow r)]
    have hlt : (lb (Tile.srcRow r)).val < 90 := (lb (Tile.srcRow r)).isLt
    show min (lb (Tile.srcRow r)).val 89 = (lb (Tile.srcRow r)).val
    omega)
  have hxv : ∀ (k : Fin 8) (l : Fin 16), Tile.chunk (Tile.xA m d) (Tile.srcRow r) k (ix2 (0 : Fin 1) l)
      = ((xr (Glue.tailRow r) (Glue.lane k l) : ℝ) : EReal) := fun k l => h.hx _ _
  have hcv : ∀ (k : Fin 8) (l : Fin 16),
      Tile.chunk (Tile.cA m d) (Tile.labRow (Tile.lA m d (ix1 (Tile.srcRow r)))) k (ix2 (0 : Fin 1) l)
        = ((cr (lb (Glue.tailRow r)) (Glue.lane k l) : ℝ) : EReal) := fun k l => by
    rw [hrow]; exact h.hc _ _
  show Tile.rowDot (Tile.chunk (Tile.xA m d) (Tile.srcRow r))
      (Tile.chunk (Tile.cA m d) (Tile.labRow (Tile.lA m d (ix1 (Tile.srcRow r))))) (ix2 (0 : Fin 1) l) = _
  unfold Tile.rowDot
  exact ScIdeal.row0_apply _ _ _ _ _ _ _ _ _ _ _ _ _ _ _ _
    (fun k l => xr (Glue.tailRow r) (Glue.lane k l)) (fun k l => cr (lb (Glue.tailRow r)) (Glue.lane k l))
    (hxv 0) (hcv 0) (hxv 1) (hcv 1) (hxv 2) (hcv 2) (hxv 3) (hcv 3) (hxv 4) (hcv 4) (hxv 5) (hcv 5) (hxv 6) (hcv 6)
    (hxv 7) (hcv 7) l

end Ideal

/-- The first call's accumulated part, its two kept rows and the tiles' lane sums combine to the specification's loss. -/
theorem value_eq (m : (ℓ : Loc nD τ sig) → Buf (Elt Ideal) ℓ) (d : Dev nD)
    (hP : Cert.Pre_input_domain.fn (F := Ideal) (m (xLoc d)) (m (lLoc d)) (m (cLoc d)) = fun _ => 1#1) :
    Regs.W6 m (Tile.scOut m) d Regs.r5' = fun _ => Cert.Spec.loss (m (xLoc d)) (m (lLoc d)) (m (cLoc d)) := by
  obtain ⟨xr, lb, cr, hx, hl, hc⟩ := Cert.PreFacts.witnesses _ _ _ hP
  have h : Wit m d xr lb cr := ⟨hx, hl, hc⟩
  refine (W6_r5 m (Tile.scOut m) d).trans (funext fun _ => ?_)
  rw [Cert.Spec.loss_of_real _ _ _ xr lb cr hx hl hc,
    ← Glue.glue xr lb cr
      (∑ b ∈ Finset.univ.filter (fun b : Fin 16384 => b.val < 15872),
        max (1 + Cert.Spec.best xr cr b (lb b) - Cert.Spec.cosv xr cr b (lb b)) 0)
      (fun r => Cert.Spec.best xr cr (Glue.tailRow r) (lb (Glue.tailRow r)))
      (fun r => 1 / Cert.Spec.den cr (lb (Glue.tailRow r)))
      (fun r l => ∑ k : Fin 8, xr (Glue.tailRow r) (Glue.lane k l) * cr (lb (Glue.tailRow r)) (Glue.lane k l))
      rfl (fun _ => rfl) (fun _ => rfl) (fun _ _ => rfl)]
  exact R2Ideal.k2_pay1_apply _ _ _ _ _ _ _ _ (tab_eq h) (mrow_eq h (Tile.scOut m)) (irow_eq h (Tile.scOut m))
    (acc_eq h (Tile.scOut m))

end Cert.KernelIdeal.ValueAsm

end
-- ==== Proof.Algebraic.lean ====
import proofs.«217715_g15917148799621_cont_week2b_1297_29_alg».proof.Proof.Claims
import proofs.«217715_g15917148799621_cont_week2b_1297_29_alg».proof.Proof.ValueAsm
import proofs.«217715_g15917148799621_cont_week2b_1297_29_alg».proof.Proof.RefValue
import proofs.«217715_g15917148799621_cont_week2b_1297_29_alg».proof.Proof.PreFacts

noncomputable section

namespace Cert.Proof.Algebraic

open Cert.KernelIdeal Cert.KernelIdeal.Setup
open Idealize.ShloMosaic Idealize.ShloMosaic.TcCoe Idealize.SL.Sem

theorem labOK_of_pre [hPre : Cert.Pre_input_domain.Facts]
    (m : (ℓ : Loc Cert.KernelIdeal.nD Cert.KernelIdeal.τ Cert.KernelIdeal.sig) → Buf (Elt Ideal) ℓ) (h : Cert.Pre_KernelIdeal m) :
    Cert.KernelIdeal.Tile.LabOK (F := Ideal) m := fun d j =>
  Nat.lt_succ_of_le (Cert.PreFacts.label_range (F := Ideal) _ _ _ (h d) j).1

theorem frame_ki [hK : Cert.KernelIdeal.Facts] [hPre : Cert.Pre_input_domain.Facts] : Cert.frame_KernelIdeal := fun m ρ hpre =>
  (θ_run Cert.KernelIdeal.defs _ _).mono (fun _ h c => (h c).2)
    (Cert.KernelIdeal.Claims.run_main (F := Ideal) m ρ (labOK_of_pre m hpre))

/-- Both runs end at the specification's loss of the same arguments. -/
theorem algebraic [hK : Cert.KernelIdeal.Facts] [hR : Cert.ReferenceIdeal.Facts] [hPre : Cert.Pre_input_domain.Facts] :
    Cert.algebraic_KernelIdeal_ReferenceIdeal := by
  intro m ρ m' ρ' hpre hagree
  refine ⟨fun c => fun _ => Cert.Spec.loss (m (xLoc c)) (m (lLoc c)) (m (cLoc c)), ?_, ?_⟩
  · refine (θ_run Cert.KernelIdeal.defs _ _).mono (fun _ h c => ⟨(h c).1.trans ?_, (h c).2⟩)
      (Cert.KernelIdeal.Claims.run_main (F := Ideal) m ρ (labOK_of_pre m hpre))
    exact Cert.KernelIdeal.ValueAsm.value_eq m c (hpre c)
  · have hP' : Cert.Pre_ReferenceIdeal m' := fun c => by
      show Cert.Pre_input_domain.fn (F := Ideal) _ _ _ = _
      rw [(hagree c).1, (hagree c).2.1, (hagree c).2.2]; exact hpre c
    refine (θ_run Cert.ReferenceIdeal.defs _ _).mono (fun _ h c => ⟨(h c).1.trans ?_, (h c).2⟩)
      (Cert.RefValue.run m' ρ' hP')
    rw [(hagree c).1, (hagree c).2.1, (hagree c).2.2]
    rfl

end Cert.Proof.Algebraic

end
-- ==== Proof.BitsFrame.lean ====
import proofs.«217715_g15917148799621_cont_week2b_1297_29_alg».proof.Defs
import proofs.«217715_g15917148799621_cont_week2b_1297_29_alg».proof.Proof.Claims
import proofs.«217715_g15917148799621_cont_week2b_1297_29_alg».proof.Proof.PreFacts
import proofs.«217715_g15917148799621_cont_week2b_1297_29_alg».proof.Proof.Gen.Kernel

noncomputable section

namespace Cert.Proof.BitsFrame

open Idealize.ShloMosaic Idealize.ShloMosaic.TcCoe Idealize.SL.Sem

/-- A named constant read as the value of its own pattern: under this reading the idealized program is the printed one, term for term. -/
@[reducible] def patternNamed : Named Bits := ⟨fun _ _ {φ} b => Scalar.ofBits φ b⟩

attribute [local instance] patternNamed

set_option smartUnfolding false in
set_option maxHeartbeats 1000000 in
/-- The run of the idealized program holds at every instance and every reading of its named constants; at the reading above it is the printed kernel's run, and the frame drops the value. -/
theorem frame_k [hK : Cert.Kernel.Facts] [hPre : Cert.Pre_input_domain.Facts] : Cert.frame_Kernel := fun m ρ hpre =>
  (θ_run Cert.Kernel.defs _ _).mono (fun _ h c => (h c).2)
    (Cert.KernelIdeal.Claims.run_main (F := Bits) m ρ fun d j =>
      Nat.lt_succ_of_le (Cert.PreFacts.label_range (F := Bits) _ _ _ (hpre d) j).1)

end Cert.Proof.BitsFrame

end
-- ==== Proof.lean ====
import proofs.«217715_g15917148799621_cont_week2b_1297_29_alg».proof.Defs
import proofs.«217715_g15917148799621_cont_week2b_1297_29_alg».proof.Proof.Gen.Kernel
import proofs.«217715_g15917148799621_cont_week2b_1297_29_alg».proof.Proof.Gen.KernelIdeal
import proofs.«217715_g15917148799621_cont_week2b_1297_29_alg».proof.Proof.Gen.ReferenceIdeal
import proofs.«217715_g15917148799621_cont_week2b_1297_29_alg».proof.Proof.Gen.Pre_input_domain
import proofs.«217715_g15917148799621_cont_week2b_1297_29_alg».proof.Proof.RefFrame
import proofs.«217715_g15917148799621_cont_week2b_1297_29_alg».proof.Proof.Preserves
import proofs.«217715_g15917148799621_cont_week2b_1297_29_alg».proof.Proof.Algebraic
import proofs.«217715_g15917148799621_cont_week2b_1297_29_alg».proof.Proof.BitsFrame

noncomputable section

namespace Cert.Proof

open Idealize.ShloMosaic Idealize.SL.Sem

/-- The five conjuncts: three frames, the idealization's ledger, and equal results over the extended reals. -/
theorem claim : Cert.Claim :=
  ⟨Cert.Kernel.Gen.facts, Cert.KernelIdeal.Gen.facts, Cert.ReferenceIdeal.Gen.facts, Cert.Pre_input_domain.Gen.facts,
    Cert.Proof.BitsFrame.frame_k, Cert.Proof.Algebraic.frame_ki, Cert.Proof.RefFrame.frame_ri,
    Cert.Proof.Preserves.preserves, Cert.Proof.Algebraic.algebraic⟩

end Cert.Proof

end
